-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg1 : IVec S2x1600000 32) (main_v83 : IVec S_ 1) (main_v85 : IVec S1600000 32) : IVec S_ 1 :=
  let main_c_32 : IVec S_ 32 := constantI S_ 32 0#32
  let main_v86 : IVec S1600000 32 := broadcastInDim S1600000 ![] bcast_S_S1600000 main_c_32
  let main_v87 : IVec S1600000 1 := cmpi .sge main_v85 main_v86
  let main_c_33 : IVec S_ 1 := constantI S_ 1 1#1
  let main_v88 : IVec S_ 1 := (fun x v => Host.reduce IntOp.andi x v reducesTo_S1600000_S_d0 h_S_) main_v87 main_c_33
  let main_v89 : IVec S_ 1 := andi main_v83 main_v88
  let main_v90 : IVec S1x1600000 32 := (extractStridedSlice S1x1600000 ![0, 0] · slices_S2x1600000_S1x1600000_0_0) main_arg1
  let main_v91 : IVec S1600000 32 := shapeCast S1600000 main_v90 shapeCasts_S1x1600000_S1600000
  let main_c_34 : IVec S_ 32 := constantI S_ 32 100000#32
  let main_v92 : IVec S1600000 32 := broadcastInDim S1600000 ![] bcast_S_S1600000 main_c_34
  let main_v93 : IVec S1600000 1 := cmpi .slt main_v91 main_v92
  let main_c_35 : IVec S_ 1 := constantI S_ 1 1#1
  let main_v94 : IVec S_ 1 := (fun x v => Host.reduce IntOp.andi x v reducesTo_S1600000_S_d0 h_S_) main_v93 main_c_35
  let main_v95 : IVec S_ 1 := andi main_v89 main_v94
  main_v95

def fn_part4 {F : FTy → Type} [FloatOps F] (main_arg1 : IVec S2x1600000 32) (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : IVec S1x1600000 32 := (extractStridedSlice S1x1600000 ![0, 0] · slices_S2x1600000_S1x1600000_0_0) main_arg1
  let main_v85 : IVec S1600000 32 := shapeCast S1600000 main_v84 shapeCasts_S1x1600000_S1600000
  fn_part5 (F := F) main_arg1 main_v83 main_v85

def fn_part3 {F : FTy → Type} [FloatOps F] (main_arg1 : IVec S2x1600000 32) (main_arg12 : FVec F S64 .f32) (main_arg13 : FVec F S64 .f32) (main_arg14 : FVec F S64x32 .f32) (main_arg15 : FVec F S32 .f32) (main_arg16 : FVec F S32x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg1 main_arg15 main_arg16 main_arg17 main_v63 main_v67

def fn_part2 {F : FTy → Type} [FloatOps F] (main_arg1 : IVec S2x1600000 32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_arg16 main_arg17 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1x1 : Shape := ⟨2, ![1, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x32 : Shape := ⟨2, ![1, 32]⟩
abbrev S100000x32 : Shape := ⟨2, ![100000, 32]⟩
abbrev S5000x32 : Shape := ⟨2, ![5000, 32]⟩
abbrev S100000x1 : Shape := ⟨2, ![100000, 1]⟩
abbrev S5000x1 : Shape := ⟨2, ![5000, 1]⟩

abbrev nBuf : Space → Nat
  | .hbm => 195
  | .vmem => 72
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x32, .f32⟩
  | 15 => ⟨S32, .f32⟩
  | 16 => ⟨S32x1, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1, .i32⟩
  | 65 => ⟨S_, .i32⟩
  | 66 => ⟨S1700000x1, .i32⟩
  | 67 => ⟨S1700000x1, .i1⟩
  | 68 => ⟨S1x1, .i32⟩
  | 69 => ⟨S1700000x1, .i32⟩
  | 70 => ⟨S1700000x1, .i1⟩
  | 71 => ⟨S1700000x1, .i1⟩
  | 72 => ⟨S_, .i1⟩
  | 73 => ⟨S1700000, .i1⟩
  | 74 => ⟨S1700000x128, .f32⟩
  | 75 => ⟨S1700000x128, .i1⟩
  | 76 => ⟨S_, .f32⟩
  | 77 => ⟨S1700000x128, .f32⟩
  | 78 => ⟨S1700000x128, .f32⟩
  | 79 => ⟨S1700000x128, .f32⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S1x128, .f32⟩
  | 86 => ⟨S100000x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S100000x128, .bf16⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1, .i32⟩
  | 110 => ⟨S_, .i32⟩
  | 111 => ⟨S1700000x1, .i32⟩
  | 112 => ⟨S1700000x1, .i1⟩
  | 113 => ⟨S1x1, .i32⟩
  | 114 => ⟨S1700000x1, .i32⟩
  | 115 => ⟨S1700000x1, .i1⟩
  | 116 => ⟨S1700000x1, .i1⟩
  | 117 => ⟨S_, .i1⟩
  | 118 => ⟨S1700000, .i1⟩
  | 119 => ⟨S1700000x128, .f32⟩
  | 120 => ⟨S1700000x128, .i1⟩
  | 121 => ⟨S_, .f32⟩
  | 122 => ⟨S1700000x128, .f32⟩
  | 123 => ⟨S1700000x128, .f32⟩
  | 124 => ⟨S1700000x128, .f32⟩
  | 125 => ⟨S1700000x128, .f32⟩
  | 126 => ⟨S_, .f32⟩
  | 127 => ⟨S100000x128, .f32⟩
  | _ => ⟨S100000x128, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S100000x128, .bf16⟩
  | 17 => ⟨S100000x64, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1, .i32⟩
  | 27 => ⟨S_, .i32⟩
  | 28 => ⟨S1700000x1, .i32⟩
  | 29 => ⟨S1700000x1, .i1⟩
  | 30 => ⟨S1x1, .i32⟩
  | 31 => ⟨S1700000x1, .i32⟩
  | 32 => ⟨S1700000x1, .i1⟩
  | 33 => ⟨S1700000x1, .i1⟩
  | 34 => ⟨S_, .i1⟩
  | 35 => ⟨S1700000, .i1⟩
  | 36 => ⟨S1700000x64, .f32⟩
  | 37 => ⟨S1700000x64, .i1⟩
  | 38 => ⟨S_, .f32⟩
  | 39 => ⟨S1700000x64, .f32⟩
  | 40 => ⟨S1700000x64, .f32⟩
  | 41 => ⟨S1700000x64, .f32⟩
  | 42 => ⟨S1700000x64, .f32⟩
  | 43 => ⟨S_, .f32⟩
  | 44 => ⟨S100000x64, .f32⟩
  | 45 => ⟨S1700000x1, .i32⟩
  | 46 => ⟨S100000x64, .f32⟩
  | 47 => ⟨S1x64, .f32⟩
  | 48 => ⟨S100000x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S1x64, .f32⟩
  | 59 => ⟨S1x64, .f32⟩
  | 60 => ⟨S1x64, .f32⟩
  | 61 => ⟨S100000x64, .bf16⟩
  | 62 => ⟨S1x32, .f32⟩
  | 63 => ⟨S100000x32, .f32⟩
  | 64 => ⟨S1x1, .f32⟩
  | 65 => ⟨S100000x1, .f32⟩
  | 66 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S5000x128, .bf16⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .bf16⟩
  | .local _ .vmem, ⟨39, _⟩ => ⟨S5000x128, .bf16⟩
  | .local _ .vmem, ⟨40, _⟩ => ⟨S5000x128, .bf16⟩
  | .local _ .vmem, ⟨41, _⟩ => ⟨S5000x128, .bf16⟩
  | .local _ .vmem, ⟨42, _⟩ => ⟨S128x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .bf16⟩
  | .local _ .vmem, ⟨59, _⟩ => ⟨S5000x64, .bf16⟩
  | .local _ .vmem, ⟨60, _⟩ => ⟨S5000x64, .bf16⟩
  | .local _ .vmem, ⟨61, _⟩ => ⟨S5000x64, .bf16⟩
  | .local _ .vmem, ⟨62, _⟩ => ⟨S64x32, .f32⟩
  | .local _ .vmem, ⟨63, _⟩ => ⟨S1x32, .f32⟩
  | .local _ .vmem, ⟨64, _⟩ => ⟨S5000x32, .f32⟩
  | .local _ .vmem, ⟨65, _⟩ => ⟨S5000x32, .f32⟩
  | .local _ .vmem, ⟨66, _⟩ => ⟨S5000x32, .f32⟩
  | .local _ .vmem, ⟨67, _⟩ => ⟨S5000x32, .f32⟩
  | .local _ .vmem, ⟨68, _⟩ => ⟨S32x1, .f32⟩
  | .local _ .vmem, ⟨69, _⟩ => ⟨S1x1, .f32⟩
  | .local _ .vmem, ⟨70, _⟩ => ⟨S5000x1, .f32⟩
  | .local _ .vmem, ⟨71, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_5 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38_0 : Ref sig .tc := ⟨.hbm, 86, rfl⟩
abbrev main_v38_1 : Ref sig .tc := ⟨.hbm, 87, rfl⟩
abbrev main_v38_2 : Ref sig .tc := ⟨.hbm, 88, rfl⟩
abbrev main_cst_6 : Ref sig .tc := ⟨.hbm, 89, rfl⟩
abbrev main_v39 : Ref sig .tc := ⟨.hbm, 90, rfl⟩
abbrev main_v40 : Ref sig .tc := ⟨.hbm, 91, rfl⟩
abbrev main_cst_7 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_call1_c : Ref sig .tc := ⟨.hbm, 101, rfl⟩
abbrev main_call1_v0 : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_c_1 : Ref sig .tc := ⟨.hbm, 109, rfl⟩
abbrev main_call1_c_2 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_3 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_call1_cst : Ref sig .tc := ⟨.hbm, 121, rfl⟩
abbrev main_call1_v15 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_cst_8 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56_0 : Ref sig .tc := ⟨.hbm, 131, rfl⟩
abbrev main_v56_1 : Ref sig .tc := ⟨.hbm, 132, rfl⟩
abbrev main_v56_2 : Ref sig .tc := ⟨.hbm, 133, rfl⟩
abbrev main_cst_9 : Ref sig .tc := ⟨.hbm, 134, rfl⟩
abbrev main_v57 : Ref sig .tc := ⟨.hbm, 135, rfl⟩
abbrev main_v58 : Ref sig .tc := ⟨.hbm, 136, rfl⟩
abbrev main_cst_10 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_call2_c : Ref sig .tc := ⟨.hbm, 146, rfl⟩
abbrev main_call2_v0 : Ref sig .tc := ⟨.hbm, 147, rfl⟩
abbrev main_call2_v1 : Ref sig .tc := ⟨.hbm, 148, rfl⟩
abbrev main_call2_c_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_c_1 : Ref sig .tc := ⟨.hbm, 154, rfl⟩
abbrev main_call2_c_2 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_c_3 : Ref sig .tc := ⟨.hbm, 162, rfl⟩
abbrev main_call2_v12 : Ref sig .tc := ⟨.hbm, 163, rfl⟩
abbrev main_call2_v13 : Ref sig .tc := ⟨.hbm, 164, rfl⟩
abbrev main_call2_v14 : Ref sig .tc := ⟨.hbm, 165, rfl⟩
abbrev main_call2_cst : Ref sig .tc := ⟨.hbm, 166, rfl⟩
abbrev main_call2_v15 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_cst_11 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74_0 : Ref sig .tc := ⟨.hbm, 176, rfl⟩
abbrev main_v74_1 : Ref sig .tc := ⟨.hbm, 177, rfl⟩
abbrev main_v74_2 : Ref sig .tc := ⟨.hbm, 178, rfl⟩
abbrev main_cst_12 : Ref sig .tc := ⟨.hbm, 179, rfl⟩
abbrev main_v75 : Ref sig .tc := ⟨.hbm, 180, rfl⟩
abbrev main_v76 : Ref sig .tc := ⟨.hbm, 181, rfl⟩
abbrev main_cst_13 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc10_stg3_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc10_sem3_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  packedbf16_S5000x64_S5000x64_0_0 : (Rect.unit (s := S5000x64) ![0, 0] S5000x64.size inb_S5000x64_S5000x64_0_0).PackedRows (EltTy.packing .bf16)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .bf16 = 32 ∨ (Rect.block (s := S100000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .bf16 = 32 ∨ (Rect.block (s := S100000x128) S5000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .bf16 = 32 ∨ (Rect.block (s := S100000x128) S5000x128.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .bf16 = 32 ∨ (Rect.block (s := S100000x128) S5000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .bf16 = 32 ∨ (Rect.block (s := S100000x64) S5000x64.size (cc8_transform_5 i) (hinb8_5 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .bf16 = 32 ∨ (Rect.block (s := S100000x64) S5000x64.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x32.size a ≤ S100000x32.size a
  hwx9_3 : ∀ i : grid9.Coords, EltTy.bits .f32 = 32 ∨ (Rect.block (s := S100000x32) S5000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S100000x32.size a
  hwx10_0 : ∀ i : grid10.Coords, EltTy.bits .f32 = 32 ∨ (Rect.block (s := S100000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x1.size a ≤ S32x1.size a
  hwx10_1 : ∀ i : grid10.Coords, EltTy.bits .f32 = 32 ∨ (Rect.block (s := S32x1) S32x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x1.size a ≤ S100000x1.size a
  hwx10_3 : ∀ i : grid10.Coords, EltTy.bits .f32 = 32 ∨ (Rect.block (s := S100000x1) S5000x1.size (cc10_transform_3 i) (hinb10_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v56_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v65) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v72) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v73) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74_0) S5000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v74_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v74_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v74_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v76) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v80) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v81) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v82) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v83) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v83) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v84) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v85) S5000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v85) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg16) S32x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v86) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v87) S5000x1.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x32, .f32⟩
  | 15 => ⟨S32, .f32⟩
  | 16 => ⟨S32x1, .f32⟩
  | 17 => ⟨S1, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x64, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x64, .f32⟩
  | 41 => ⟨S1700000x64, .f32⟩
  | 42 => ⟨S1700000x64, .f32⟩
  | 43 => ⟨S_, .f32⟩
  | 44 => ⟨S100000x64, .f32⟩
  | 45 => ⟨S1700000x1, .i32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x32, .f32⟩
  | 84 => ⟨S1x32, .f32⟩
  | 85 => ⟨S100000x32, .f32⟩
  | 86 => ⟨S100000x32, .f32⟩
  | 87 => ⟨S_, .f32⟩
  | 88 => ⟨S100000x32, .f32⟩
  | 89 => ⟨S100000x32, .f32⟩
  | 90 => ⟨S100000x1, .f32⟩
  | 91 => ⟨S1x1, .f32⟩
  | 92 => ⟨S100000x1, .f32⟩
  | 93 => ⟨S100000x1, .f32⟩
  | 94 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call0_cst : Ref sig .tc := ⟨.hbm, 104, rfl⟩
abbrev main_call0_v0 : Ref sig .tc := ⟨.hbm, 105, rfl⟩
abbrev main_v71 : Ref sig .tc := ⟨.hbm, 106, rfl⟩
abbrev main_v72 : Ref sig .tc := ⟨.hbm, 107, rfl⟩
abbrev main_c_13 : Ref sig .tc := ⟨.hbm, 108, rfl⟩
abbrev main_v73 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call1_cst : Ref sig .tc := ⟨.hbm, 156, rfl⟩
abbrev main_call1_v0 : Ref sig .tc := ⟨.hbm, 157, rfl⟩
abbrev main_v113 : Ref sig .tc := ⟨.hbm, 158, rfl⟩
abbrev main_v114 : Ref sig .tc := ⟨.hbm, 159, rfl⟩
abbrev main_c_21 : Ref sig .tc := ⟨.hbm, 160, rfl⟩
abbrev main_v115 : Ref sig .tc := ⟨.hbm, 161, rfl⟩
abbrev main_v116 : Ref sig .tc := ⟨.hbm, 162, rfl⟩
abbrev main_c_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_23 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_24 : Ref sig .tc := ⟨.hbm, 178, rfl⟩
abbrev main_v130 : Ref sig .tc := ⟨.hbm, 179, rfl⟩
abbrev main_cst_25 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_26 : Ref sig .tc := ⟨.hbm, 187, rfl⟩
abbrev main_v137 : Ref sig .tc := ⟨.hbm, 188, rfl⟩
abbrev main_cst_27 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_28 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_call2_cst : Ref sig .tc := ⟨.hbm, 208, rfl⟩
abbrev main_call2_v0 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_call3_cst : Ref sig .tc := ⟨.hbm, 215, rfl⟩
abbrev main_call3_v0 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Kept.lean ====
/- Which buffers each segment of the idealized kernel program's run leaves alone. -/
import proofs.«429891_j34660386078849_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers segment `k` may change. -/
noncomputable def seg : ℕ → List (Ref sig .tc)
  | 0 => [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29]
  | 1 => List.ofFn (Pipeline.arrRef spec0)
  | 2 => [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v31]
  | 3 => [main_v32, main_v33, main_cst_5, main_v34, main_v35, main_v36, main_v37]
  | 4 => List.ofFn (Pipeline.arrRef spec1)
  | 5 => [main_cst_6, main_v39, main_v40, main_cst_7, main_v41, main_v42, main_v43, main_v44, main_v45, main_v46]
  | 6 => List.ofFn (Pipeline.arrRef spec2)
  | 7 => List.ofFn (Pipeline.arrRef spec3)
  | 8 => [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v49]
  | 9 => [main_v50, main_v51, main_cst_8, main_v52, main_v53, main_v54, main_v55]
  | 10 => List.ofFn (Pipeline.arrRef spec4)
  | 11 => [main_cst_9, main_v57, main_v58, main_cst_10, main_v59, main_v60, main_v61, main_v62, main_v63, main_v64]
  | 12 => List.ofFn (Pipeline.arrRef spec5)
  | 13 => List.ofFn (Pipeline.arrRef spec6)
  | 14 => [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v67]
  | 15 => [main_v68, main_v69, main_cst_11, main_v70, main_v71, main_v72, main_v73]
  | 16 => List.ofFn (Pipeline.arrRef spec7)
  | 17 => [main_cst_12, main_v75, main_v76, main_cst_13, main_v77, main_v78, main_v79, main_v80, main_v81, main_v82]
  | 18 => List.ofFn (Pipeline.arrRef spec8)
  | 19 => [main_v84]
  | 20 => List.ofFn (Pipeline.arrRef spec9)
  | 21 => [main_v86]
  | 22 => List.ofFn (Pipeline.arrRef spec10)
  | 23 => [main_v88]
  | _ => []

/-- The buffer contents at boundary `k`. -/
def Wn : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | 22 => W22 m ρ
  | 23 => W23 m ρ
  | 24 => W24 m ρ
  | _ => W24 m ρ

/-- Every operation of a host line writes a buffer of its segment's list. -/
theorem writes_sub :
    ((hostOps0 : List (HloOp τ sig (Elt F))).Forall fun op => op.writes ⊆ ((seg 0).map (Proc.devRef (τ := τ) .tc)).toFinset)
    ∧ ((hostOps1 : List (HloOp τ sig (Elt F))).Forall fun op => op.writes ⊆ ((seg 2).map (Proc.devRef (τ := τ) .tc)).toFinset)
    ∧ ((hostOps1_1 : List (HloOp τ sig (Elt F))).Forall fun op => op.writes ⊆ ((seg 3).map (Proc.devRef (τ := τ) .tc)).toFinset)
    ∧ ((hostOps2 : List (HloOp τ sig (Elt F))).Forall fun op => op.writes ⊆ ((seg 5).map (Proc.devRef (τ := τ) .tc)).toFinset)
    ∧ ((hostOps4 : List (HloOp τ sig (Elt F))).Forall fun op => op.writes ⊆ ((seg 8).map (Proc.devRef (τ := τ) .tc)).toFinset)
    ∧ ((hostOps4_1 : List (HloOp τ sig (Elt F))).Forall fun op => op.writes ⊆ ((seg 9).map (Proc.devRef (τ := τ) .tc)).toFinset)
    ∧ ((hostOps5 : List (HloOp τ sig (Elt F))).Forall fun op => op.writes ⊆ ((seg 11).map (Proc.devRef (τ := τ) .tc)).toFinset)
    ∧ ((hostOps7 : List (HloOp τ sig (Elt F))).Forall fun op => op.writes ⊆ ((seg 14).map (Proc.devRef (τ := τ) .tc)).toFinset)
    ∧ ((hostOps7_1 : List (HloOp τ sig (Elt F))).Forall fun op => op.writes ⊆ ((seg 15).map (Proc.devRef (τ := τ) .tc)).toFinset)
    ∧ ((hostOps8 : List (HloOp τ sig (Elt F))).Forall fun op => op.writes ⊆ ((seg 17).map (Proc.devRef (τ := τ) .tc)).toFinset)
    ∧ ((hostOps9 : List (HloOp τ sig (Elt F))).Forall fun op => op.writes ⊆ ((seg 19).map (Proc.devRef (τ := τ) .tc)).toFinset)
    ∧ ((hostOps10 : List (HloOp τ sig (Elt F))).Forall fun op => op.writes ⊆ ((seg 21).map (Proc.devRef (τ := τ) .tc)).toFinset)
    ∧ ((hostOps11 : List (HloOp τ sig (Elt F))).Forall fun op => op.writes ⊆ ((seg 23).map (Proc.devRef (τ := τ) .tc)).toFinset) := by
  refine ⟨?_, ?_, ?_, ?_, ?_, ?_, ?_, ?_, ?_, ?_, ?_, ?_, ?_⟩ <;>
  · simp only [hostOps0, hostOps1, hostOps1_1, hostOps2, hostOps4, hostOps4_1, hostOps5, hostOps7, hostOps7_1, hostOps8, hostOps9, hostOps10, hostOps11, List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)

theorem ne_of_not_mem_ofFn {n : ℕ} {f : Fin n → Ref sig .tc} {b : Ref sig .tc} (h : b ∉ List.ofFn f) (w : Fin n) : f w ≠ b :=
  fun e => h (List.mem_ofFn.mpr ⟨w, e⟩)

/-- One segment leaves a buffer outside its list alone. -/
theorem step (c : Dev nD) (b : Ref sig .tc) : ∀ k, k < 24 → b ∉ seg k →
    Wn m ρ (k + 1) c (Proc.devRef .tc b) = Wn m ρ k c (Proc.devRef .tc b) := by
  obtain ⟨h0, h1, h2, h3, h4, h5, h6, h7, h8, h9, h10, h11, h12⟩ := writes_sub (F := F)
  intro k hk h
  match k, hk, h with
  | 0, _, h => exact StableHlo.after_of_writes_sub _ _ h0 h
  | 1, _, h => exact W2_of_ne m ρ c b (ne_of_not_mem_ofFn h)
  | 2, _, h => exact StableHlo.after_of_writes_sub _ _ h1 h
  | 3, _, h => exact StableHlo.after_of_writes_sub _ _ h2 h
  | 4, _, h => exact W5_of_ne m ρ c b (ne_of_not_mem_ofFn h)
  | 5, _, h => exact StableHlo.after_of_writes_sub _ _ h3 h
  | 6, _, h => exact W7_of_ne m ρ c b (ne_of_not_mem_ofFn h)
  | 7, _, h => exact W8_of_ne m ρ c b (ne_of_not_mem_ofFn h)
  | 8, _, h => exact StableHlo.after_of_writes_sub _ _ h4 h
  | 9, _, h => exact StableHlo.after_of_writes_sub _ _ h5 h
  | 10, _, h => exact W11_of_ne m ρ c b (ne_of_not_mem_ofFn h)
  | 11, _, h => exact StableHlo.after_of_writes_sub _ _ h6 h
  | 12, _, h => exact W13_of_ne m ρ c b (ne_of_not_mem_ofFn h)
  | 13, _, h => exact W14_of_ne m ρ c b (ne_of_not_mem_ofFn h)
  | 14, _, h => exact StableHlo.after_of_writes_sub _ _ h7 h
  | 15, _, h => exact StableHlo.after_of_writes_sub _ _ h8 h
  | 16, _, h => exact W17_of_ne m ρ c b (ne_of_not_mem_ofFn h)
  | 17, _, h => exact StableHlo.after_of_writes_sub _ _ h9 h
  | 18, _, h => exact W19_of_ne m ρ c b (ne_of_not_mem_ofFn h)
  | 19, _, h => exact StableHlo.after_of_writes_sub _ _ h10 h
  | 20, _, h => exact W21_of_ne m ρ c b (ne_of_not_mem_ofFn h)
  | 21, _, h => exact StableHlo.after_of_writes_sub _ _ h11 h
  | 22, _, h => exact W23_of_ne m ρ c b (ne_of_not_mem_ofFn h)
  | 23, _, h => exact StableHlo.after_of_writes_sub _ _ h12 h
  | n + 24, hk, _ => exact absurd hk (by omega)

/-- A buffer outside the lists of segments `i … i + d - 1` holds at boundary `i + d` what it held at boundary `i`. -/
theorem keep (c : Dev nD) (i : ℕ) (b : Ref sig .tc) : ∀ d, i + d ≤ 24 → (∀ k, k < d → b ∉ seg (i + k)) →
    Wn m ρ (i + d) c (Proc.devRef .tc b) = Wn m ρ i c (Proc.devRef .tc b)
  | 0, _, _ => rfl
  | d + 1, hd, h => (step m ρ c b (i + d) (by omega) (h d (Nat.lt_succ_self d))).trans
      (keep c i b d (by omega) fun k hk => h k (Nat.lt_succ_of_lt hk))

theorem main_arg0_0_1 (c : Dev nD) : W1 m ρ c (Proc.devRef .tc main_arg0) = W0 m ρ c (Proc.devRef .tc main_arg0) :=
  keep m ρ c 0 main_arg0 1 (by decide) (by decide)
theorem main_arg2_0_1 (c : Dev nD) : W1 m ρ c (Proc.devRef .tc main_arg2) = W0 m ρ c (Proc.devRef .tc main_arg2) :=
  keep m ρ c 0 main_arg2 1 (by decide) (by decide)
theorem main_arg3_0_3 (c : Dev nD) : W3 m ρ c (Proc.devRef .tc main_arg3) = W0 m ρ c (Proc.devRef .tc main_arg3) :=
  keep m ρ c 0 main_arg3 3 (by decide) (by decide)
theorem main_arg4_0_5 (c : Dev nD) : W5 m ρ c (Proc.devRef .tc main_arg4) = W0 m ρ c (Proc.devRef .tc main_arg4) :=
  keep m ρ c 0 main_arg4 5 (by decide) (by decide)
theorem main_arg5_0_5 (c : Dev nD) : W5 m ρ c (Proc.devRef .tc main_arg5) = W0 m ρ c (Proc.devRef .tc main_arg5) :=
  keep m ρ c 0 main_arg5 5 (by decide) (by decide)
theorem main_arg6_0_7 (c : Dev nD) : W7 m ρ c (Proc.devRef .tc main_arg6) = W0 m ρ c (Proc.devRef .tc main_arg6) :=
  keep m ρ c 0 main_arg6 7 (by decide) (by decide)
theorem main_arg7_0_9 (c : Dev nD) : W9 m ρ c (Proc.devRef .tc main_arg7) = W0 m ρ c (Proc.devRef .tc main_arg7) :=
  keep m ρ c 0 main_arg7 9 (by decide) (by decide)
theorem main_arg8_0_11 (c : Dev nD) : W11 m ρ c (Proc.devRef .tc main_arg8) = W0 m ρ c (Proc.devRef .tc main_arg8) :=
  keep m ρ c 0 main_arg8 11 (by decide) (by decide)
theorem main_arg9_0_11 (c : Dev nD) : W11 m ρ c (Proc.devRef .tc main_arg9) = W0 m ρ c (Proc.devRef .tc main_arg9) :=
  keep m ρ c 0 main_arg9 11 (by decide) (by decide)
theorem main_arg10_0_13 (c : Dev nD) : W13 m ρ c (Proc.devRef .tc main_arg10) = W0 m ρ c (Proc.devRef .tc main_arg10) :=
  keep m ρ c 0 main_arg10 13 (by decide) (by decide)
theorem main_arg11_0_15 (c : Dev nD) : W15 m ρ c (Proc.devRef .tc main_arg11) = W0 m ρ c (Proc.devRef .tc main_arg11) :=
  keep m ρ c 0 main_arg11 15 (by decide) (by decide)
theorem main_arg12_0_17 (c : Dev nD) : W17 m ρ c (Proc.devRef .tc main_arg12) = W0 m ρ c (Proc.devRef .tc main_arg12) :=
  keep m ρ c 0 main_arg12 17 (by decide) (by decide)
theorem main_arg13_0_17 (c : Dev nD) : W17 m ρ c (Proc.devRef .tc main_arg13) = W0 m ρ c (Proc.devRef .tc main_arg13) :=
  keep m ρ c 0 main_arg13 17 (by decide) (by decide)
theorem main_arg14_0_20 (c : Dev nD) : W20 m ρ c (Proc.devRef .tc main_arg14) = W0 m ρ c (Proc.devRef .tc main_arg14) :=
  keep m ρ c 0 main_arg14 20 (by decide) (by decide)
theorem main_arg15_0_19 (c : Dev nD) : W19 m ρ c (Proc.devRef .tc main_arg15) = W0 m ρ c (Proc.devRef .tc main_arg15) :=
  keep m ρ c 0 main_arg15 19 (by decide) (by decide)
theorem main_arg16_0_22 (c : Dev nD) : W22 m ρ c (Proc.devRef .tc main_arg16) = W0 m ρ c (Proc.devRef .tc main_arg16) :=
  keep m ρ c 0 main_arg16 22 (by decide) (by decide)
theorem main_arg17_0_21 (c : Dev nD) : W21 m ρ c (Proc.devRef .tc main_arg17) = W0 m ρ c (Proc.devRef .tc main_arg17) :=
  keep m ρ c 0 main_arg17 21 (by decide) (by decide)
theorem main_v3_1_2 (c : Dev nD) : W2 m ρ c (Proc.devRef .tc main_v3) = W1 m ρ c (Proc.devRef .tc main_v3) :=
  keep m ρ c 1 main_v3 1 (by decide) (by decide)
theorem main_v3_1_8 (c : Dev nD) : W8 m ρ c (Proc.devRef .tc main_v3) = W1 m ρ c (Proc.devRef .tc main_v3) :=
  keep m ρ c 1 main_v3 7 (by decide) (by decide)
theorem main_v3_1_14 (c : Dev nD) : W14 m ρ c (Proc.devRef .tc main_v3) = W1 m ρ c (Proc.devRef .tc main_v3) :=
  keep m ρ c 1 main_v3 13 (by decide) (by decide)
theorem main_v6_1_3 (c : Dev nD) : W3 m ρ c (Proc.devRef .tc main_v6) = W1 m ρ c (Proc.devRef .tc main_v6) :=
  keep m ρ c 1 main_v6 2 (by decide) (by decide)
theorem main_v6_1_9 (c : Dev nD) : W9 m ρ c (Proc.devRef .tc main_v6) = W1 m ρ c (Proc.devRef .tc main_v6) :=
  keep m ρ c 1 main_v6 8 (by decide) (by decide)
theorem main_v6_1_15 (c : Dev nD) : W15 m ρ c (Proc.devRef .tc main_v6) = W1 m ρ c (Proc.devRef .tc main_v6) :=
  keep m ρ c 1 main_v6 14 (by decide) (by decide)
theorem main_v29_1_3 (c : Dev nD) : W3 m ρ c (Proc.devRef .tc main_v29) = W1 m ρ c (Proc.devRef .tc main_v29) :=
  keep m ρ c 1 main_v29 2 (by decide) (by decide)
theorem main_v29_1_9 (c : Dev nD) : W9 m ρ c (Proc.devRef .tc main_v29) = W1 m ρ c (Proc.devRef .tc main_v29) :=
  keep m ρ c 1 main_v29 8 (by decide) (by decide)
theorem main_v29_1_15 (c : Dev nD) : W15 m ρ c (Proc.devRef .tc main_v29) = W1 m ρ c (Proc.devRef .tc main_v29) :=
  keep m ρ c 1 main_v29 14 (by decide) (by decide)
theorem main_v38_0_5_6 (c : Dev nD) : W6 m ρ c (Proc.devRef .tc main_v38_0) = W5 m ρ c (Proc.devRef .tc main_v38_0) :=
  keep m ρ c 5 main_v38_0 1 (by decide) (by decide)
theorem main_v56_0_11_12 (c : Dev nD) : W12 m ρ c (Proc.devRef .tc main_v56_0) = W11 m ρ c (Proc.devRef .tc main_v56_0) :=
  keep m ρ c 11 main_v56_0 1 (by decide) (by decide)
theorem main_v74_0_17_18 (c : Dev nD) : W18 m ρ c (Proc.devRef .tc main_v74_0) = W17 m ρ c (Proc.devRef .tc main_v74_0) :=
  keep m ρ c 17 main_v74_0 1 (by decide) (by decide)
theorem main_v83_19_20 (c : Dev nD) : W20 m ρ c (Proc.devRef .tc main_v83) = W19 m ρ c (Proc.devRef .tc main_v83) :=
  keep m ρ c 19 main_v83 1 (by decide) (by decide)
theorem main_v85_21_22 (c : Dev nD) : W22 m ρ c (Proc.devRef .tc main_v85) = W21 m ρ c (Proc.devRef .tc main_v85) :=
  keep m ρ c 21 main_v85 1 (by decide) (by decide)

end Cert.KernelIdeal.Kept

end
-- ==== Proof.EdgeOps.lean ====
import proofs.«429891_j34660386078849_1_alg».proof.KernelIdeal

noncomputable section

namespace Cert.KernelIdeal.Edges

open Cert.KernelIdeal Idealize.ShloMosaic

variable {F : FTy → Type} [FloatOps F] [Facts₀]

open Facts₀

/-- The first row of the edge list, then every node once (its loop). -/
def sources (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

def targets (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

def wrapped (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

def asColumn (v : IVec S1700000 32) : IVec S1700000x1 32 := broadcastInDim S1700000x1 ![0] bcast_S1700000_S1700000x1_0 v

def invSqrtDegree (tgt : IVec S1700000 32) : FVec F S100000 .f32 :=
  Host.rsqrt (maximumf
    (Host.scatterAdd scatter_S100000_S1700000x1_S1700000_n_0_0_1
      (broadcastInDim S100000 ![] bcast_S_S100000 (constant S_ .f32 0x00000000#32)) (asColumn tgt)
      (broadcastInDim S1700000 ![] bcast_S_S1700000 (constant S_ .f32 0x3F800000#32)))
    (broadcastInDim S100000 ![] bcast_S_S100000 (constant S_ .f32 0x2B8CBCCC#32)))

/-- An edge's weight: the product of the reciprocal roots of the degrees of its two ends. -/
def edgeWeights (src tgt : IVec S1700000 32) : FVec F S1700000x1 .f32 :=
  broadcastInDim S1700000x1 ![0] bcast_S1700000_S1700000x1_0
    (mulf (Host.gather gather_S100000_S1700000x1_S1700000_n_0_n_n_0_1_1 (invSqrtDegree (F := F) tgt) (asColumn (wrapped src)))
          (Host.gather gather_S100000_S1700000x1_S1700000_n_0_n_n_0_1_1 (invSqrtDegree (F := F) tgt) (asColumn (wrapped tgt))))

def aggregate128 (src tgt : IVec S1700000 32) (wts : FVec F S1700000x1 .f32) (hp : FVec F S100000x128 .f32) : FVec F S100000x128 .f32 :=
  Host.scatterAdd scatter_S100000x128_S1700000x1_S1700000x128_1_0_0_1
    (broadcastInDim S100000x128 ![] bcast_S_S100000x128 (constant S_ .f32 0x00000000#32)) (asColumn tgt)
    (mulf (Host.gather gather_S100000x128_S1700000x1_S1700000x128_1_0_n_n_0_1_1128 hp (asColumn (wrapped src)))
          (broadcastInDim S1700000x128 ![0, 1] bcast_S1700000x1_S1700000x128_0_1 wts))

def aggregate64 (src tgt : IVec S1700000 32) (wts : FVec F S1700000x1 .f32) (hp : FVec F S100000x64 .f32) : FVec F S100000x64 .f32 :=
  Host.scatterAdd scatter_S100000x64_S1700000x1_S1700000x64_1_0_0_1
    (broadcastInDim S100000x64 ![] bcast_S_S100000x64 (constant S_ .f32 0x00000000#32)) (asColumn tgt)
    (mulf (Host.gather gather_S100000x64_S1700000x1_S1700000x64_1_0_n_n_0_1_164 hp (asColumn (wrapped src)))
          (broadcastInDim S1700000x64 ![0, 1] bcast_S1700000x1_S1700000x64_0_1 wts))

end Cert.KernelIdeal.Edges

end
-- ==== Proof.TakeOps.lean ====
import proofs.«429891_j34660386078849_1_alg».proof.Proof.EdgeOps

noncomputable section

namespace Cert.KernelIdeal.Edges

open Cert.KernelIdeal Idealize.ShloMosaic

variable {F : FTy → Type} [FloatOps F] [Facts₀]

open Facts₀

/-- Whether every wrapped source lies in `0 … 99999`, per edge. -/
def inTable (src : IVec S1700000 32) : IVec S1700000 1 :=
  (fun x v => Host.reduce IntOp.andi x v reducesTo_S1700000x1_S1700000_d1 h_S_)
    (andi (cmpi .sge (asColumn (wrapped src)) (broadcastInDim S1700000x1 ![] bcast_S_S1700000x1 (constantI S_ 32 0#32)))
          (cmpi .sle (asColumn (wrapped src))
            (broadcastInDim S1700000x1 ![0, 1] bcast_S1x1_S1700000x1_0_1 (broadcastInDim S1x1 ![1] bcast_S1_S1x1_1 (constantI S1 32 99999#32)))))
    (constantI S_ 1 1#1)

/-- The rows named by the sources, where the guard holds, else the fill value. -/
def takeRows128 (src : IVec S1700000 32) (hp : FVec F S100000x128 .f32) : FVec F S1700000x128 .f32 :=
  select (broadcastInDim S1700000x128 ![0] bcast_S1700000_S1700000x128_0 (inTable src))
    (Host.gather gather_S100000x128_S1700000x1_S1700000x128_1_0_n_n_0_1_1128 hp (asColumn (wrapped src)))
    (broadcastInDim S1700000x128 ![] bcast_S_S1700000x128 (constant S_ .f32 0x7FC00000#32))

def takeRows64 (src : IVec S1700000 32) (hp : FVec F S100000x64 .f32) : FVec F S1700000x64 .f32 :=
  select (broadcastInDim S1700000x64 ![0] bcast_S1700000_S1700000x64_0 (inTable src))
    (Host.gather gather_S100000x64_S1700000x1_S1700000x64_1_0_n_n_0_1_164 hp (asColumn (wrapped src)))
    (broadcastInDim S1700000x64 ![] bcast_S_S1700000x64 (constant S_ .f32 0x7FC00000#32))

def aggregateTaken128 (src tgt : IVec S1700000 32) (wts : FVec F S1700000x1 .f32) (hp : FVec F S100000x128 .f32) : FVec F S100000x128 .f32 :=
  Host.scatterAdd scatter_S100000x128_S1700000x1_S1700000x128_1_0_0_1
    (broadcastInDim S100000x128 ![] bcast_S_S100000x128 (constant S_ .f32 0x00000000#32)) (asColumn tgt)
    (mulf (takeRows128 src hp) (broadcastInDim S1700000x128 ![0, 1] bcast_S1700000x1_S1700000x128_0_1 wts))

def aggregateTaken64 (src tgt : IVec S1700000 32) (wts : FVec F S1700000x1 .f32) (hp : FVec F S100000x64 .f32) : FVec F S100000x64 .f32 :=
  Host.scatterAdd scatter_S100000x64_S1700000x1_S1700000x64_1_0_0_1
    (broadcastInDim S100000x64 ![] bcast_S_S100000x64 (constant S_ .f32 0x00000000#32)) (asColumn tgt)
    (mulf (takeRows64 src hp) (broadcastInDim S1700000x64 ![0, 1] bcast_S1700000x1_S1700000x64_0_1 wts))

end Cert.KernelIdeal.Edges

end
-- ==== Proof.TakeStretch.lean ====
import proofs.«429891_j34660386078849_1_alg».proof.Proof.Gen.KernelIdeal.Frame
import proofs.«429891_j34660386078849_1_alg».proof.Proof.TakeOps
import Idealize.ShloMosaic.Lib.StableHlo.Run
import Idealize.ShloMosaic.Lib.Pipeline.Frame
import Idealize.ShloMosaic.PureOps.Ideal

noncomputable section

namespace Cert.KernelIdeal.Chain

open Cert.KernelIdeal Cert.KernelIdeal.Gen Cert.KernelIdeal.Edges Idealize.ShloMosaic Idealize.ShloMosaic.StableHlo Idealize.ShloMosaic.TcCoe Idealize.SL.Sem

/-- Contents moved to a buffer's own type and back are unchanged. -/
theorem bufRoundTrip {Val : EltTy → Type} {T : BufTy} (x : TRef sig T) (v : T.Contents Val) : x.ofBuf (x.toBuf v) = v := by
  obtain ⟨r, h, _, _⟩ := x
  subst h
  rfl

/-- Reading the sources at their own type changes nothing. -/
theorem ofBuf_sources (p : main_v3.ty = (⟨S1700000, .i32⟩ : BufTy)) (d) (u) (v : main_v3.ty.Contents (Elt Ideal)) :
    (TRef.of main_v3 p d u : TRef sig ⟨S1700000, .i32⟩).ofBuf (Val := Elt Ideal) v = v := rfl

variable (V : Valuation τ sig (Elt Ideal))

set_option maxHeartbeats 2000000 in
/-- Each layer's take stretch leaves the guarded take of the product's rows by the sources. -/
theorem takeStretch1 :
    @Eq (FVec Ideal S1700000x128 .f32) (StableHlo.after hostOps1 V (Proc.devRef .tc main_v31))
      (takeRows128 (F := Ideal) (V (Proc.devRef .tc main_v3)) (V (Proc.devRef .tc main_v30))) := by
  after_results_simp
  simp only [bufRoundTrip]
  have ep : ∀ (p : main_v30.ty = (⟨S100000x128, .f32⟩ : BufTy)) (d) (u) (v : main_v30.ty.Contents (Elt Ideal)),
      (TRef.of main_v30 p d u : TRef sig ⟨S100000x128, .f32⟩).ofBuf (Val := Elt Ideal) v = v := fun _ _ _ _ => rfl
  have eo : ∀ (p : main_v31.ty = (⟨S1700000x128, .f32⟩ : BufTy)) (d) (u) (v : FVec Ideal S1700000x128 .f32),
      (TRef.of main_v31 p d u : TRef sig ⟨S1700000x128, .f32⟩).toBuf (Val := Elt Ideal) v = v := fun _ _ _ _ => rfl
  simp only [ofBuf_sources, ep, eo]
  unfold takeRows128 inTable asColumn wrapped
  rfl

set_option maxHeartbeats 2000000 in
theorem takeStretch2 :
    @Eq (FVec Ideal S1700000x128 .f32) (StableHlo.after hostOps4 V (Proc.devRef .tc main_v49))
      (takeRows128 (F := Ideal) (V (Proc.devRef .tc main_v3)) (V (Proc.devRef .tc main_v48))) := by
  after_results_simp
  simp only [bufRoundTrip]
  have ep : ∀ (p : main_v48.ty = (⟨S100000x128, .f32⟩ : BufTy)) (d) (u) (v : main_v48.ty.Contents (Elt Ideal)),
      (TRef.of main_v48 p d u : TRef sig ⟨S100000x128, .f32⟩).ofBuf (Val := Elt Ideal) v = v := fun _ _ _ _ => rfl
  have eo : ∀ (p : main_v49.ty = (⟨S1700000x128, .f32⟩ : BufTy)) (d) (u) (v : FVec Ideal S1700000x128 .f32),
      (TRef.of main_v49 p d u : TRef sig ⟨S1700000x128, .f32⟩).toBuf (Val := Elt Ideal) v = v := fun _ _ _ _ => rfl
  simp only [ofBuf_sources, ep, eo]
  unfold takeRows128 inTable asColumn wrapped
  rfl

set_option maxHeartbeats 2000000 in
theorem takeStretch3 :
    @Eq (FVec Ideal S1700000x64 .f32) (StableHlo.after hostOps7 V (Proc.devRef .tc main_v67))
      (takeRows64 (F := Ideal) (V (Proc.devRef .tc main_v3)) (V (Proc.devRef .tc main_v66))) := by
  after_results_simp
  simp only [bufRoundTrip]
  have ep : ∀ (p : main_v66.ty = (⟨S100000x64, .f32⟩ : BufTy)) (d) (u) (v : main_v66.ty.Contents (Elt Ideal)),
      (TRef.of main_v66 p d u : TRef sig ⟨S100000x64, .f32⟩).ofBuf (Val := Elt Ideal) v = v := fun _ _ _ _ => rfl
  have eo : ∀ (p : main_v67.ty = (⟨S1700000x64, .f32⟩ : BufTy)) (d) (u) (v : FVec Ideal S1700000x64 .f32),
      (TRef.of main_v67 p d u : TRef sig ⟨S1700000x64, .f32⟩).toBuf (Val := Elt Ideal) v = v := fun _ _ _ _ => rfl
  simp only [ofBuf_sources, ep, eo]
  unfold takeRows64 inTable asColumn wrapped
  rfl

end Cert.KernelIdeal.Chain

end
-- ==== Proof.Spec.lean ====
import Idealize.ShloMosaic.PureOps.Ideal
import Idealize.ShloMosaic.Lib.ValueIdx

noncomputable section

namespace Cert.Gcn

open Idealize.ShloMosaic Idealize.ShloMosaic.ValueIdx
open scoped BigOperators

abbrev Mat (n m : ℕ) : Type := (⟨2, ![n, m]⟩ : Shape).Idx → EReal

/-- Every entry is a real number, not an infinity. -/
def AllReal {ι : Type} (f : ι → EReal) : Prop := ∀ i, ∃ r : ℝ, f i = (r : EReal)

/-- The number of rows, 100000, the divisor of the column statistics. -/
def nodes : EReal := Ideal.ofBits .f32 0x47C35000#32

/-- The positive constant added to a variance before the reciprocal square root. -/
def varEps : EReal := Ideal.ofBits .f32 0x3727C5AC#32

def mm {n k m : ℕ} (x : Mat n k) (w : Mat k m) : Mat n m :=
  fun j => ∑ l : Fin k, x (ix2 (j 0) l) * w (ix2 l (j 1))

def addRow {n m : ℕ} (a : Mat n m) (b : Fin m → EReal) : Mat n m := fun j => a j + b (j 1)

def colSum {n m : ℕ} (h : Mat n m) (q : Fin m) : EReal := ∑ r : Fin n, h (ix2 r q)

def colSumSq {n m : ℕ} (h : Mat n m) (q : Fin m) : EReal := ∑ r : Fin n, h (ix2 r q) * h (ix2 r q)

def colMean {n m : ℕ} (h : Mat n m) (q : Fin m) : EReal := Ideal.div (colSum h q) nodes

/-- The variance as the mean of the squares minus the square of the mean. -/
def colVarOfSquares {n m : ℕ} (h : Mat n m) (q : Fin m) : EReal :=
  Ideal.div (colSumSq h q) nodes - colMean h q * colMean h q

/-- The variance as the mean of the squared distances from the mean. -/
def colVarOfDeviations {n m : ℕ} (h : Mat n m) (q : Fin m) : EReal :=
  Ideal.div (∑ r : Fin n, (h (ix2 r q) - colMean h q) * (h (ix2 r q) - colMean h q)) nodes

/-- Centre each column at `mean`, divide by the root of `var + varEps`, scale by `g`, shift by `be`, and cut off below zero. -/
def normClamp {n m : ℕ} (h : Mat n m) (mean var g be : Fin m → EReal) : Mat n m :=
  fun j => max ((h j - mean (j 1)) * Ideal.rsqrt (var (j 1) + varEps) * g (j 1) + be (j 1)) 0

def normOfSquares {n m : ℕ} (h : Mat n m) (g be : Fin m → EReal) : Mat n m :=
  normClamp h (colMean h) (colVarOfSquares h) g be

def normOfDeviations {n m : ℕ} (h : Mat n m) (g be : Fin m → EReal) : Mat n m :=
  normClamp h (colMean h) (colVarOfDeviations h) g be

def denseClamp {n k m : ℕ} (x : Mat n k) (w : Mat k m) (b : Fin m → EReal) : Mat n m :=
  fun j => max (mm x w j + b (j 1)) 0

def dense {n k m : ℕ} (x : Mat n k) (w : Mat k m) (b : Fin m → EReal) : Mat n m :=
  fun j => mm x w j + b (j 1)

end Cert.Gcn

end
-- ==== Proof.RowBlocks.lean ====
import proofs.«429891_j34660386078849_1_alg».proof.Proof.Spec
import Idealize.ShloMosaic.Lib.StackMember
import Idealize.ShloMosaic.Lib.ValueLayout

noncomputable section

namespace Cert.Gcn

open Idealize.ShloMosaic Idealize.ShloMosaic.ValueIdx Idealize.ShloMosaic.StackMember
open scoped BigOperators

theorem origin2 : (![0, 0] : Fin 2 → Nat) = fun _ => 0 :=
  funext fun a => match a with | ⟨0, _⟩ => rfl | ⟨1, _⟩ => rfl

/-- A product added to the zero matrix is the matrix product, entry by entry the sum over the contracted index. -/
theorem matmul_plain {m k n : ℕ} {φ₁ φ₂ : FTy} (x : FVec Ideal ⟨2, ![m, k]⟩ φ₁) (w : FVec Ideal ⟨2, ![k, n]⟩ φ₂) :
    matmul (DotDims.plain m k n) none x w (constant ⟨2, ![m, n]⟩ .f32 0x00000000#32) = mm x w := by
  funext j
  obtain ⟨p, q, rfl⟩ : ∃ (p : Fin m) (q : Fin n), j = ix2 p q := ⟨j 0, j 1, eq_ix2 j⟩
  rw [matmul_zero_eq_dotGeneral, dotGeneral_plain_apply]
  rfl

variable {B n N n' : ℕ}

/-- An embedding of a block's indices into an array's that moves rows down by `o` and keeps columns. -/
def RowShift (o : ℕ) (e : (⟨2, ![B, n]⟩ : Shape).Idx → (⟨2, ![N, n']⟩ : Shape).Idx) : Prop :=
  ∀ y, (e y 0 : ℕ) = o + y 0 ∧ (e y 1 : ℕ) = y 1

namespace RowShift

variable {o : ℕ} {e : (⟨2, ![B, n]⟩ : Shape).Idx → (⟨2, ![N, n']⟩ : Shape).Idx}

/-- Block `(b, 0)` of an array cut into blocks of `B` rows starts at row `b * B` and at column `0`. -/
theorem of {ix : Fin 2 → ℕ} {b : ℕ} (h : ix = ![b, 0])
    (he : ∀ y, (e y 0 : ℕ) = ix 0 * B + 1 * y 0 ∧ (e y 1 : ℕ) = ix 1 * n + 1 * y 1 := by exact fun _ => ⟨rfl, rfl⟩) :
    RowShift (b * B) e := fun y => by
  subst h
  have h0 : (e y 0 : ℕ) = b * B + 1 * y 0 := (he y).1
  have h1 : (e y 1 : ℕ) = 0 * n + 1 * y 1 := (he y).2
  exact ⟨by omega, by omega⟩

theorem eq (h : RowShift o e) (y) (i : (⟨2, ![N, n']⟩ : Shape).Idx) (h0 : (i 0 : ℕ) = o + y 0) (h1 : (i 1 : ℕ) = y 1) :
    e y = i :=
  Shape.idx_ext₂ ((h y).1.trans h0.symm) ((h y).2.trans h1.symm)

/-- A one-row block, read at the column of an entry of the output block. -/
theorem row {e : (⟨2, ![1, n]⟩ : Shape).Idx → (⟨2, ![1, n]⟩ : Shape).Idx}
    {eo : (⟨2, ![B, n]⟩ : Shape).Idx → (⟨2, ![N, n]⟩ : Shape).Idx} (h : RowShift 0 e) (ho : RowShift o eo) (y) :
    e (ix2 (0 : Fin 1) (y 1)) = ix2 (0 : Fin 1) (eo y 1) :=
  h.eq _ _ rfl (ho y).2

end RowShift

/-- A one-row matrix as a function of its column. -/
abbrev row (M : Mat 1 n) : Fin n → EReal := fun q => M (ix2 (0 : Fin 1) q)

variable {k m o : ℕ} {eo : (⟨2, ![B, m]⟩ : Shape).Idx → (⟨2, ![N, m]⟩ : Shape).Idx} (ho : RowShift o eo)
  {e0 : (⟨2, ![B, k]⟩ : Shape).Idx → (⟨2, ![N, k]⟩ : Shape).Idx} (h0 : RowShift o e0)
  {e1 : (⟨2, ![k, m]⟩ : Shape).Idx → (⟨2, ![k, m]⟩ : Shape).Idx} (h1 : RowShift 0 e1)
  {r1 r2 r3 r4 : (⟨2, ![1, m]⟩ : Shape).Idx → (⟨2, ![1, m]⟩ : Shape).Idx}
  (g1 : RowShift 0 r1) (g2 : RowShift 0 r2) (g3 : RowShift 0 r3) (g4 : RowShift 0 r4)

include ho h0 h1 in
/-- A row block of `X` times the whole of `W` is the same row block of `X · W`. -/
theorem mm_rowShift (X : Mat N k) (W : Mat k m) (y) :
    mm (fun y => X (e0 y)) (fun y => W (e1 y)) y = mm X W (eo y) :=
  Finset.sum_congr rfl fun l _ => by
    show X (e0 (ix2 (y 0) l)) * W (e1 (ix2 l (y 1))) = X (ix2 (eo y 0) l) * W (ix2 l (eo y 1))
    rw [h0.eq (ix2 (y 0) l) (ix2 (eo y 0) l) (ho y).1 rfl, h1.eq (ix2 l (y 1)) (ix2 l (eo y 1)) (Nat.zero_add _).symm (ho y).2]

include ho h0 h1 g1 in
/-- The same for a dense layer, its bias one row. -/
theorem dense_rowShift (X : Mat N k) (W : Mat k m) (b : Mat 1 m) (y) :
    dense (fun y => X (e0 y)) (fun y => W (e1 y)) (row fun y => b (r1 y)) y = dense X W (row b) (eo y) := by
  show mm _ _ y + b (r1 (ix2 (0 : Fin 1) (y 1))) = mm X W (eo y) + b (ix2 (0 : Fin 1) (eo y 1))
  rw [mm_rowShift ho h0 h1, g1.row ho]
  rfl

include ho g1 g2 g3 g4 in
/-- Normalising a row block with the four rows is the same row block of the normalised array. -/
theorem normClamp_rowShift {ex : (⟨2, ![B, m]⟩ : Shape).Idx → (⟨2, ![N, m]⟩ : Shape).Idx} (hx : RowShift o ex)
    (X : Mat N m) (M V G Be : Mat 1 m) (y) :
    normClamp (fun y => X (ex y)) (row fun y => M (r1 y)) (row fun y => V (r2 y)) (row fun y => G (r3 y)) (row fun y => Be (r4 y)) y
      = normClamp X (row M) (row V) (row G) (row Be) (eo y) := by
  show max ((X (ex y) - M (r1 (ix2 (0 : Fin 1) (y 1)))) * Ideal.rsqrt (V (r2 (ix2 (0 : Fin 1) (y 1))) + varEps)
    * G (r3 (ix2 (0 : Fin 1) (y 1))) + Be (r4 (ix2 (0 : Fin 1) (y 1)))) 0 = _
  rw [hx.eq y (eo y) (ho y).1 (ho y).2, g1.row ho, g2.row ho, g3.row ho, g4.row ho]
  rfl

/-- Row `i 0` lies in the row block of index `i 0 / B`: an entry is in the block `(i 0 / B, 0)` of `B` rows and all columns. -/
theorem mem_rowBlock (i : (⟨2, ![N, n]⟩ : Shape).Idx) {ix : Fin 2 → ℕ} (h : ix = ![i 0 / B, 0]) (hB : 0 < B) (a : Fin 2) :
    ix a * ![B, n] a ≤ i a ∧ (i a : ℕ) < ix a * ![B, n] a + ![B, n] a := by
  subst h
  match a with
  | ⟨0, _⟩ => exact ⟨Nat.div_mul_le_self _ _, Nat.lt_div_mul_add hB⟩
  | ⟨1, _⟩ =>
    show 0 * n ≤ (i 1 : ℕ) ∧ (i 1 : ℕ) < 0 * n + n
    rw [Nat.zero_mul, Nat.zero_add]; exact ⟨Nat.zero_le _, (i 1).isLt⟩

end Cert.Gcn

end
-- ==== Proof.MatmulBlocks0.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body multiplies its row block by the weights. -/
theorem pay0 (x : Vec Ideal S5000x128 .f32) (w : Vec Ideal S128x128 .f32) : k0_pay1 (F := Ideal) x w = mm x w := by
  unfold k0_pay1
  exact matmul_plain _ _

/-- The block indices at point `t`: `(t, 0)` for the row-blocked arrays, `(0, 0)` for the others. -/
theorem blockIndex0 : ∀ t : Fin cfg0.N,
    win0_0.index t = ![t.val, 0] ∧ win0_1.index t = ![0, 0] ∧ win0_2.index t = ![t.val, 0] :=
  (by decide +kernel : ∀ t : Fin grid0.N, _)

variable (V : (c : Dev nD) → (b : Ref sig .tc) → Buf (Elt Ideal) ((c : Thread nD τ).loc b))

/-- What point `t` writes back is row block `t` of the matrix product. -/
theorem flushed0 (c : Dev nD) (t : Fin cfg0.N) :
    (dat0 (F := Ideal) V c).flushed 2 t = ((cfg0.win 2).blk t).view.read (Elt Ideal) (mm (V c main_arg0) (V c main_arg2)) := by
  show (cfg0.win 2).cut (grid0.coords t) ((dat0 (F := Ideal) V c).after 2 t) = _
  rw [after0_2, out0_2, View.canon_unit_zero origin2]
  simp only [View.ld_unit_zero (S := S5000x128) origin2, View.ld_unit_zero (S := S128x128) origin2]
  obtain ⟨e0, e1, e2⟩ := blockIndex0 t
  funext y
  refine (congrFun (pay0 _ _) y).trans ?_
  have s2 : RowShift (t.val * 5000) ((cfg0.win 2).blk t).view.emb := .of e2
  have s0 : RowShift (t.val * 5000) ((cfg0.win 0).blk t).view.emb := .of e0
  have s1 : RowShift 0 ((cfg0.win 1).blk t).view.emb := .of e1
  exact mm_rowShift s2 s0 s1 (V c main_arg0) (V c main_arg2) y

/-- Row `r` of the result is in the block of point `r / 5000`. -/
theorem cover0 (i : S100000x128.Idx) :
    ∃ t : Fin cfg0.N, (cfg0.win 2).flush t = true ∧ i ∈ ((cfg0.win 2).blk t).view.set := by
  let t : Fin cfg0.N := ⟨(i 0).val / 5000, Nat.div_lt_of_lt_mul (i 0).isLt⟩
  obtain ⟨-, -, h⟩ := blockIndex0 t
  refine ⟨t, flush0_2 t, ?_⟩
  show i ∈ ((View.whole main_v30).slice (win0_2.rect t)).set
  rw [View.set_slice_whole, Rect.mem_set_unit]
  exact mem_rowBlock i h (by decide)

theorem matmul0 (c : Dev nD) :
    (dat0 (F := Ideal) V c).arrAt 2 cfg0.N = mm (V c main_arg0) (V c main_arg2) :=
  (dat0 (F := Ideal) V c).arrAt_eq_of_cover 2 _ (fun t _ => flushed0 V c t) cover0

end Cert.KernelIdeal.Blocks

end
-- ==== Proof.BiasStats.lean ====
import proofs.«429891_j34660386078849_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Fintype.BigOperators
import Mathlib.Algebra.BigOperators.Group.Finset.Basic

noncomputable section

namespace Cert.KernelIdeal.Blocks.BiasStats

open Cert.Gcn Idealize.ShloMosaic Idealize.ShloMosaic.ValueIdx
open scoped BigOperators

variable {B m n : ℕ}

theorem hz : (![0, 0] : Fin 2 → Nat) = fun _ => 0 := funext fun a => by fin_cases a <;> rfl

/-- Summing out the row axis visits `(p, q)` for every row `p`. -/
theorem lift_ix2 (h : Shape.Reduces ⟨2, ![B, m]⟩ [0] ⟨1, ![m]⟩) (q : Fin m) (p : Fin B) :
    h.lift (ix1 q) p = ix2 p q := by
  funext a
  apply Fin.ext
  match a with
  | ⟨0, _⟩ => rfl
  | ⟨1, _⟩ => rfl

/-- A block plus a row broadcast over its rows, at an entry. -/
theorem bias_apply (x0 : FVec Ideal ⟨2, ![B, m]⟩ .f32) (x1 : FVec Ideal ⟨2, ![1, m]⟩ .f32) (h0 h1 hb) (p : Fin B) (q : Fin m) :
    addf (shapeCast ⟨2, ![B, m]⟩ x0 h0) (broadcastTo ⟨2, ![B, m]⟩ (shapeCast ⟨2, ![1, m]⟩ x1 h1) hb) (ix2 p q)
      = x0 (ix2 p q) + x1 (ix2 (0 : Fin 1) q) := by
  rw [addf_apply, shapeCast_self, broadcastTo_1b_ab_apply, shapeCast_self]

/-- A row plus the column sums of a block whose column `q` holds `f` at the row numbers `B t … B t + B - 1`. -/
theorem acc_block (acc : FVec Ideal ⟨2, ![1, m]⟩ .f32) (Y : FVec Ideal ⟨2, ![B, m]⟩ .f32) (h1 h2)
    (hr : Shape.Reduces ⟨2, ![B, m]⟩ [0] ⟨1, ![m]⟩) (hφ hz) (q : Fin m) (f : ℕ → EReal) (t : ℕ)
    (hY : ∀ p : Fin B, Y (ix2 p q) = f (B * t + p.val)) :
    addf (shapeCast ⟨2, ![1, m]⟩ acc h1) (shapeCast ⟨2, ![1, m]⟩ (multiReduction .add [0] ⟨1, ![m]⟩ Y 0x00000000#32 hr hφ hz) h2) (ix2 (0 : Fin 1) q)
      = acc (ix2 (0 : Fin 1) q) + ∑ p ∈ Finset.range B, f (B * t + p) := by
  rw [addf_apply, shapeCast_self, shapeCast_a_1a_apply, Ideal.multiReduction_add_single,
    ← Fin.sum_univ_eq_sum_range (fun p => f (B * t + p)) B]
  exact congrArg _ (Finset.sum_congr rfl fun p _ => (congrArg Y (lift_ix2 hr q p)).trans (hY p))

/-- Column `q` as a function of the row number, extended by zero: sums over rows become sums over `Finset.range`. -/
def rowN (A : Mat n m) (q : Fin m) (r : ℕ) : EReal := if hr : r < n then A (ix2 ⟨r, hr⟩ q) else 0

theorem rowN_lt (A : Mat n m) (q : Fin m) {r : ℕ} (hr : r < n) : rowN A q r = A (ix2 ⟨r, hr⟩ q) := dif_pos hr

/-- Re-indexing a sum over `Fin n` by `Finset.range n`, through any summand `g`. -/
theorem sum_rows (A : Mat n m) (g : EReal → EReal) (q : Fin m) :
    ∑ r : Fin n, g (A (ix2 r q)) = ∑ r ∈ Finset.range n, g (rowN A q r) := by
  rw [← Fin.sum_univ_eq_sum_range (fun r => g (rowN A q r)) n]
  exact Finset.sum_congr rfl fun r _ => congrArg g (rowN_lt A q r.isLt).symm

/-- A running sum that starts as the sum of `f` over block 0 and at each later point adds the sum of `f` over that point's block
    is, after point `k`, the sum of `f` below `B (k + 1)`: addition is associative. -/
theorem run_sum {N : ℕ} (f : ℕ → EReal) (s : (k : ℕ) → k < N → EReal)
    (h0 : ∀ h, s 0 h = ∑ p ∈ Finset.range B, f (B * 0 + p))
    (hs : ∀ k (h : k + 1 < N), s (k + 1) h = s k (Nat.lt_of_succ_lt h) + ∑ p ∈ Finset.range B, f (B * (k + 1) + p)) :
    ∀ k (h : k < N), s k h = ∑ r ∈ Finset.range (B * (k + 1)), f r
  | 0, h => by
    rw [h0, Nat.mul_one]
    exact Finset.sum_congr rfl fun p _ => by rw [Nat.mul_zero, Nat.zero_add]
  | k + 1, h => by rw [hs, run_sum f s h0 hs k, Nat.mul_succ B (k + 1), Finset.sum_range_add]

/-- A row that starts as the `g`-sums of block 0 over a zero row and at each later point adds the `g`-sums of its block
    holds after point `k` the `g`-sums over the rows below `B (k + 1)`. -/
theorem stat_run {N : ℕ} (A : Mat n m) (g : EReal → EReal) (q : Fin m) (s : (k : ℕ) → k < N → FVec Ideal ⟨2, ![1, m]⟩ .f32)
    (z : FVec Ideal ⟨2, ![1, m]⟩ .f32) (hz0 : z (ix2 (0 : Fin 1) q) = 0) (Y : (k : ℕ) → k < N → FVec Ideal ⟨2, ![B, m]⟩ .f32)
    (hY : ∀ k h (p : Fin B), Y k h (ix2 p q) = g (rowN A q (B * k + p.val))) (h1 h2)
    (hr : Shape.Reduces ⟨2, ![B, m]⟩ [0] ⟨1, ![m]⟩) (hφ hz)
    (hA : ∀ h, s 0 h = addf (shapeCast ⟨2, ![1, m]⟩ z h1) (shapeCast ⟨2, ![1, m]⟩ (multiReduction .add [0] ⟨1, ![m]⟩ (Y 0 h) 0x00000000#32 hr hφ hz) h2))
    (hB : ∀ k h, s (k + 1) h = addf (shapeCast ⟨2, ![1, m]⟩ (s k (Nat.lt_of_succ_lt h)) h1)
      (shapeCast ⟨2, ![1, m]⟩ (multiReduction .add [0] ⟨1, ![m]⟩ (Y (k + 1) h) 0x00000000#32 hr hφ hz) h2)) :
    ∀ k h, s k h (ix2 (0 : Fin 1) q) = ∑ r ∈ Finset.range (B * (k + 1)), g (rowN A q r) :=
  run_sum (fun r => g (rowN A q r)) (fun k h => s k h (ix2 (0 : Fin 1) q))
    (fun h => by
      show s 0 h (ix2 (0 : Fin 1) q) = _
      rw [hA, acc_block z (Y 0 h) h1 h2 hr hφ hz q (fun r => g (rowN A q r)) 0 (hY 0 h), hz0, zero_add])
    (fun k h => by
      show s (k + 1) h (ix2 (0 : Fin 1) q) = _
      rw [hB, acc_block _ (Y (k + 1) h) h1 h2 hr hφ hz q (fun r => g (rowN A q r)) (k + 1) (hY (k + 1) h)])

theorem succ_mod_ne {N k : ℕ} (h : k + 1 < N) : ¬(k + 1) % N = 0 := by
  rw [Nat.mod_eq_of_lt h]
  exact Nat.succ_ne_zero k

/-- The index with row number `B t + p` and column `q`, from its coordinates as a block at block index `(t, 0)` gives them. -/
theorem rows_idx {i : (⟨2, ![n, m]⟩ : Shape).Idx} {k k' t : ℕ} {p : Fin B} {q : Fin m} (hk : k = t) (hk' : k' = 0)
    (h0 : (i 0).val = k * B + 1 * p.val) (h1 : (i 1).val = k' * m + 1 * q.val) (hp : B * t + p.val < n) :
    i = ix2 ⟨B * t + p.val, hp⟩ q := by
  subst hk hk'
  exact Shape.idx_ext₂ (h0.trans (by rw [Nat.mul_comm, Nat.one_mul])) (h1.trans (by rw [Nat.zero_mul, Nat.zero_add, Nat.one_mul]))

/-- The index of column `q` of a one-row array, from its column coordinate as the block at block index 0 gives it. -/
theorem row_idx {i : (⟨2, ![1, m]⟩ : Shape).Idx} {k' : ℕ} {q : Fin m} (hk' : k' = 0) (h1 : (i 1).val = k' * m + 1 * q.val) :
    i = ix2 (0 : Fin 1) q := by
  subst hk'
  exact Shape.idx_ext₂ (Nat.lt_one_iff.mp (idx2_lt0 i)) (h1.trans (by rw [Nat.zero_mul, Nat.zero_add, Nat.one_mul]))

theorem row_eq (i : (⟨2, ![1, m]⟩ : Shape).Idx) : ix2 (0 : Fin 1) (i 1) = i :=
  Shape.idx_ext₂ (Nat.lt_one_iff.mp (idx2_lt0 i)).symm rfl

/-- Two functions of the indices of a one-row array that agree at every column are equal. -/
theorem row_funext {α : Type} {f g : (⟨2, ![1, m]⟩ : Shape).Idx → α} (h : ∀ q, f (ix2 (0 : Fin 1) q) = g (ix2 (0 : Fin 1) q)) : f = g :=
  funext fun y => by rw [← row_eq y]; exact h _

theorem mem_of_emb {sig : RefSig} {κ : Kind} {sp : Space} {S : Shape} {e : EltTy} {v : View sig κ sp S e} {y : S.Idx} {i : v.ty.Idx}
    (h : v.emb y = i) : i ∈ v.set := h ▸ v.emb_mem_set y

end Cert.KernelIdeal.Blocks.BiasStats
end
-- ==== Proof.BiasStats1.lean ====
import proofs.«429891_j34660386078849_1_alg».proof.Proof.Gen.KernelIdeal.Frame
import proofs.«429891_j34660386078849_1_alg».proof.Proof.BiasStats

noncomputable section

namespace Cert.KernelIdeal.Blocks

open Cert.KernelIdeal Cert.KernelIdeal.Gen Cert.Gcn Idealize.ShloMosaic Idealize.ShloMosaic.ValueIdx Idealize.ShloMosaic.TcCoe Idealize.SL.Sem BiasStats
open Idealize.ShloMosaic.Pipeline (Dat Cfg Window)
open scoped BigOperators

namespace BiasStats1

variable (V : (c : Dev nD) → (b : Ref sig .tc) → Buf (Elt Ideal) ((c : Thread nD τ).loc b)) (c : Dev nD)

abbrev xblk (t : Fin cfg1.N) : Vec Ideal S5000x128 .f32 := iblk1 V c 0 t
abbrev bblk (t : Fin cfg1.N) : Vec Ideal S1x128 .f32 := iblk1 V c 1 t
abbrev prev (t : Fin cfg1.N) := outsAt1 V c (t.val - 1) (Nat.lt_of_le_of_lt (Nat.sub_le _ _) t.isLt)
abbrev biased : Mat 100000 128 := addRow (V c main_v36) fun q => V c main_v37 (ix2 (0 : Fin 1) q)

/-- Point 0: the biased block, and its column sums and sums of squares added to zero rows. -/
theorem outs_A (t : Fin cfg1.N) (h0 : t.val % 20 = 0) :
    outsAt1 V c t.val t.isLt = (k1_pay3 (xblk V c t) (bblk V c t), k1_pay4 (xblk V c t) (bblk V c t) (k1_pay1 (F := Ideal)), k1_pay5 (xblk V c t) (bblk V c t) (k1_pay2 (F := Ideal))) := by
  rw [outsAt1_A V c t h0]
  unfold out1_A_2 out1_A_3 out1_A_4
  rw [View.read_writes_eq_canon _ _ _ fun _ => cover1_A_2 .., View.read_writes_eq_canon _ _ _ fun _ => cover1_A_3 .., View.read_writes_eq_canon _ _ _ fun _ => cover1_A_4 ..]
  unfold kernelRun1_A
  dsimp only
  sl_unfold_words
  rw [View.canon_unit_zero hz, View.canon_cons_unit_zero (S := S1x128) hz, View.canon_cons_unit_zero (S := S1x128) hz, View.readCov_unit_zero (S := S1x128) _ hz, View.readCov_unit_zero (S := S1x128) _ hz]
  simp only [View.readAt_eq_ld, (hs1_0 t).read_unread, (hs1_1 t).read_unread, View.ld_unit_zero (S := S5000x128) hz, View.ld_unit_zero (S := S1x128) hz]

/-- Any later point: the same block function, the two sums added to the rows the point before left. -/
theorem outs_B (t : Fin cfg1.N) (h0 : ¬t.val % 20 = 0) :
    outsAt1 V c t.val t.isLt = (k1_pay3 (xblk V c t) (bblk V c t), k1_pay4 (xblk V c t) (bblk V c t) (prev V c t).2.1, k1_pay5 (xblk V c t) (bblk V c t) (prev V c t).2.2) := by
  rw [outsAt1_B V c t h0]
  unfold out1_B_2 out1_B_3 out1_B_4
  rw [View.read_writes_eq_canon _ _ _ fun _ => cover1_B_2 .., View.read_writes_eq_canon _ _ _ fun _ => cover1_B_3 .., View.read_writes_eq_canon _ _ _ fun _ => cover1_B_4 ..]
  unfold kernelRun1_B
  dsimp only
  sl_unfold_words
  rw [View.canon_unit_zero hz, View.canon_unit_zero hz, View.canon_unit_zero hz]
  simp only [View.readAt_eq_ld, (hs1_0 t).read_unread, (hs1_1 t).read_unread, (hs1_3 t).read_unread, (hs1_4 t).read_unread, View.ld_unit_zero (S := S5000x128) hz, View.ld_unit_zero (S := S1x128) hz]

theorem rows_lt (t : Fin cfg1.N) (p : Fin 5000) : 5000 * t.val + p.val < 100000 := by
  have := lt_of_lt_of_eq t.isLt N_1
  have := p.isLt
  omega

theorem idx_facts : ∀ t : Fin cfg1.N, win1_0.index t (0 : Fin 2) = t.val ∧ win1_0.index t (1 : Fin 2) = 0
    ∧ win1_1.index t (1 : Fin 2) = 0 ∧ win1_2.index t (0 : Fin 2) = t.val ∧ win1_2.index t (1 : Fin 2) = 0
    ∧ win1_3.index t (1 : Fin 2) = 0 ∧ win1_4.index t (1 : Fin 2) = 0 :=
  (by decide +kernel : ∀ t : Fin grid1.N, _)

/-- Block coordinates to array coordinates, for all five arrays: rows advance by 5000 a point, columns never. -/
theorem embs (t : Fin cfg1.N) (p : Fin 5000) (q : Fin 128) :
    ((cfg1.win 0).blk t).view.emb (ix2 p q) = ix2 ⟨5000 * t.val + p.val, rows_lt t p⟩ q
    ∧ ((cfg1.win 2).blk t).view.emb (ix2 p q) = ix2 ⟨5000 * t.val + p.val, rows_lt t p⟩ q
    ∧ ((cfg1.win 1).blk t).view.emb (ix2 (0 : Fin 1) q) = ix2 (0 : Fin 1) q
    ∧ ((cfg1.win 3).blk t).view.emb (ix2 (0 : Fin 1) q) = ix2 (0 : Fin 1) q
    ∧ ((cfg1.win 4).blk t).view.emb (ix2 (0 : Fin 1) q) = ix2 (0 : Fin 1) q := by
  obtain ⟨e0, e1, e2, e3, e4, e5, e6⟩ := idx_facts t
  exact ⟨rows_idx e0 e1 rfl rfl _, rows_idx e3 e4 rfl rfl _, row_idx e2 rfl, row_idx e5 rfl, row_idx e6 rfl⟩

/-- So the biased block at point `t` is rows `5000 t …` of the biased array. -/
theorem entry (t : Fin cfg1.N) (p : Fin 5000) (q : Fin 128) :
    k1_pay3 (F := Ideal) (xblk V c t) (bblk V c t) (ix2 p q) = rowN (biased V c) q (5000 * t.val + p.val) := by
  obtain ⟨e0, -, e1, -⟩ := embs t p q
  rw [rowN_lt _ _ (rows_lt t p)]
  exact (bias_apply _ _ _ _ _ p q).trans (congrArg₂ (· + ·) (show xblk V c t (ix2 p q) = _ from congrArg (V c main_v36) e0)
    (show bblk V c t (ix2 (0 : Fin 1) q) = _ from congrArg (V c main_v37) e1))

/-- The column sums so far: `stat_run` with the identity as summand. -/
theorem sums_inv (q : Fin 128) : ∀ k (h : k < cfg1.N),
    (outsAt1 V c k h).2.1 (ix2 (0 : Fin 1) q) = ∑ r ∈ Finset.range (5000 * (k + 1)), id (rowN (biased V c) q r) :=
  stat_run (biased V c) id q (fun k h => (outsAt1 V c k h).2.1) k1_pay1 Ideal.ofBits_zero_f32
    (fun k h => k1_pay3 (xblk V c ⟨k, h⟩) (bblk V c ⟨k, h⟩)) (fun k h p => entry V c ⟨k, h⟩ p q) _ _ _ _ _
    (fun h => congrArg (·.2.1) (outs_A V c ⟨0, h⟩ rfl)) fun k h => congrArg (·.2.1) (outs_B V c ⟨k + 1, h⟩ (succ_mod_ne (lt_of_lt_of_eq h N_1)))

/-- The column sums of squares so far: `stat_run` with the square as summand. -/
theorem sumSqs_inv (q : Fin 128) : ∀ k (h : k < cfg1.N),
    (outsAt1 V c k h).2.2 (ix2 (0 : Fin 1) q) = ∑ r ∈ Finset.range (5000 * (k + 1)), (fun z => z * z) (rowN (biased V c) q r) :=
  stat_run (biased V c) (fun z => z * z) q (fun k h => (outsAt1 V c k h).2.2) k1_pay2 Ideal.ofBits_zero_f32
    (fun k h => mulf (k1_pay3 (xblk V c ⟨k, h⟩) (bblk V c ⟨k, h⟩)) (k1_pay3 (xblk V c ⟨k, h⟩) (bblk V c ⟨k, h⟩)))
    (fun k h p => congrArg₂ (· * ·) (entry V c ⟨k, h⟩ p q) (entry V c ⟨k, h⟩ p q)) _ _ _ _ _
    (fun h => congrArg (·.2.2) (outs_A V c ⟨0, h⟩ rfl)) fun k h => congrArg (·.2.2) (outs_B V c ⟨k + 1, h⟩ (succ_mod_ne (lt_of_lt_of_eq h N_1)))

/-- Output 2 block by block: both cases store the same biased block. -/
theorem biased_flushed (t : Fin cfg1.N) :
    (dat1 (F := Ideal) V c).flushed 2 t = ((cfg1.win 2).blk t).view.read (Elt Ideal) (biased V c) := by
  show (cfg1.win 2).cut (grid1.coords t) ((dat1 (F := Ideal) V c).after 2 t) = _
  rw [after1_2]
  funext y
  obtain ⟨p, q, rfl⟩ : ∃ (p : Fin 5000) (q : Fin 128), y = ix2 p q := ⟨y 0, y 1, eq_ix2 y⟩
  show (outsAt1 V c t.val t.isLt).1 (ix2 p q) = biased V c (((cfg1.win 2).blk t).view.emb (ix2 p q))
  rw [(embs t p q).2.1, ← rowN_lt (biased V c) q (rows_lt t p), ← entry V c t p q]
  by_cases h0 : t.val % 20 = 0
  · rw [outs_A V c t h0]
  · rw [outs_B V c t h0]

theorem last (t : Fin cfg1.N) (h : t.val % 20 = 19) : 5000 * (t.val + 1) = 100000 := by
  have := lt_of_lt_of_eq t.isLt N_1
  omega

/-- A one-row output is determined by its entries `(0, q)`. -/
theorem row_flushed3 (t : Fin cfg1.N) (X : Vec Ideal S1x128 .f32) (G : Mat 1 128) (h : ∀ q : Fin 128, X (ix2 (0 : Fin 1) q) = G (ix2 (0 : Fin 1) q)) :
    (cfg1.win 3).cut (grid1.coords t) X = ((cfg1.win 3).blk t).view.read (Elt Ideal) G :=
  row_funext fun q => (h q).trans (congrArg G (embs t 0 q).2.2.2.1).symm

theorem row_flushed4 (t : Fin cfg1.N) (X : Vec Ideal S1x128 .f32) (G : Mat 1 128) (h : ∀ q : Fin 128, X (ix2 (0 : Fin 1) q) = G (ix2 (0 : Fin 1) q)) :
    (cfg1.win 4).cut (grid1.coords t) X = ((cfg1.win 4).blk t).view.read (Elt Ideal) G :=
  row_funext fun q => (h q).trans (congrArg G (embs t 0 q).2.2.2.2).symm

/-- Output 3 is stored when the running sums have taken in all 100000 rows. -/
theorem colSums_flushed (t : Fin cfg1.N) (hf : (cfg1.win 3).flush t = true) :
    (dat1 (F := Ideal) V c).flushed 3 t = ((cfg1.win 3).blk t).view.read (Elt Ideal) fun j => colSum (biased V c) (j 1) := by
  show (cfg1.win 3).cut (grid1.coords t) ((dat1 (F := Ideal) V c).after 3 t) = _
  rw [after1_3]
  refine row_flushed3 t _ _ fun q => ?_
  rw [sums_inv V c q t.val t.isLt, last t ((flush1_3 t).mp hf)]
  exact (sum_rows _ id q).symm

/-- Output 4 likewise. -/
theorem colSumSqs_flushed (t : Fin cfg1.N) (hf : (cfg1.win 4).flush t = true) :
    (dat1 (F := Ideal) V c).flushed 4 t = ((cfg1.win 4).blk t).view.read (Elt Ideal) fun j => colSumSq (biased V c) (j 1) := by
  show (cfg1.win 4).cut (grid1.coords t) ((dat1 (F := Ideal) V c).after 4 t) = _
  rw [after1_4]
  refine row_flushed4 t _ _ fun q => ?_
  rw [sumSqs_inv V c q t.val t.isLt, last t ((flush1_4 t).mp hf)]
  exact (sum_rows _ (fun z => z * z) q).symm

/-- Row `r` is row `r % 5000` of block `r / 5000`. -/
theorem cover2 (i : S100000x128.Idx) : ∃ t : Fin cfg1.N, (cfg1.win 2).flush t = true ∧ i ∈ ((cfg1.win 2).blk t).view.set := by
  have h0 : (i 0).val < 100000 := idx2_lt0 i
  have ht : (i 0).val / 5000 < cfg1.N := lt_of_lt_of_eq (by omega) N_1.symm
  exact ⟨⟨(i 0).val / 5000, ht⟩, flush1_2 _, mem_of_emb ((embs ⟨_, ht⟩ ⟨(i 0).val % 5000, Nat.mod_lt _ (by decide)⟩ (i 1)).2.1.trans
    (Shape.idx_ext₂ (Nat.div_add_mod _ 5000) rfl))⟩

abbrev tLast : Fin cfg1.N := ⟨19, lt_of_lt_of_eq (by decide) N_1.symm⟩

/-- A one-row output has a single block; point 19 stores it. -/
theorem cover3 (i : S1x128.Idx) : ∃ t : Fin cfg1.N, (cfg1.win 3).flush t = true ∧ i ∈ ((cfg1.win 3).blk t).view.set :=
  ⟨tLast, (flush1_3 tLast).mpr rfl, mem_of_emb ((embs tLast 0 (i 1)).2.2.2.1.trans (row_eq i))⟩

theorem cover4 (i : S1x128.Idx) : ∃ t : Fin cfg1.N, (cfg1.win 4).flush t = true ∧ i ∈ ((cfg1.win 4).blk t).view.set :=
  ⟨tLast, (flush1_4 tLast).mpr rfl, mem_of_emb ((embs tLast 0 (i 1)).2.2.2.2.trans (row_eq i))⟩

end BiasStats1

section Outputs
open BiasStats1
variable (V : (c : Dev nD) → (b : Ref sig .tc) → Buf (Elt Ideal) ((c : Thread nD τ).loc b))

theorem biased1 (c : Dev nD) :
    (dat1 (F := Ideal) V c).arrAt 2 cfg1.N = addRow (V c main_v36) (fun q : Fin 128 => V c main_v37 (ix2 (0 : Fin 1) q)) :=
  (dat1 (F := Ideal) V c).arrAt_eq_of_cover 2 (biased V c) (fun t _ => biased_flushed V c t) cover2

theorem colSums1 (c : Dev nD) :
    (dat1 (F := Ideal) V c).arrAt 3 cfg1.N = fun j => colSum (addRow (V c main_v36) (fun q : Fin 128 => V c main_v37 (ix2 (0 : Fin 1) q))) (j 1) :=
  (dat1 (F := Ideal) V c).arrAt_eq_of_cover 3 _ (colSums_flushed V c) cover3

theorem colSumSqs1 (c : Dev nD) :
    (dat1 (F := Ideal) V c).arrAt 4 cfg1.N = fun j => colSumSq (addRow (V c main_v36) (fun q : Fin 128 => V c main_v37 (ix2 (0 : Fin 1) q))) (j 1) :=
  (dat1 (F := Ideal) V c).arrAt_eq_of_cover 4 _ (colSumSqs_flushed V c) cover4

end Outputs
end Cert.KernelIdeal.Blocks
end
-- ==== Proof.NormRelu2.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body normalises its data block by the four rows, scales, shifts and clamps at zero. -/
theorem pay2 (x0 : Vec Ideal S5000x128 .f32) (x1 x2 x3 x4 : Vec Ideal S1x128 .f32) :
    k2_pay1 (F := Ideal) x0 x1 x2 x3 x4 = normClamp x0 (row x1) (row x2) (row x3) (row x4) := by
  funext j
  obtain ⟨p, q, rfl⟩ : ∃ (p : Fin 5000) (q : Fin 128), j = ix2 p q := ⟨j 0, j 1, eq_ix2 j⟩
  unfold k2_pay1
  simp only [shapeCast_self]
  rw [truncf_apply, maximumf_apply, addf_apply, mulf_apply, mulf_apply, subf_apply,
    broadcastTo_1b_ab_apply, broadcastTo_1b_ab_apply, broadcastTo_1b_ab_apply, broadcastTo_1b_ab_apply]
  show max (_ * Ideal.rsqrt (_ + Ideal.ofBits .f32 0x3727C5AC#32) * _ + _) (Ideal.ofBits .f32 0x00000000#32) = _
  rw [Ideal.ofBits_zero_f32]
  rfl

/-- The block indices at point `t`: `(t, 0)` for the row-blocked arrays, `(0, 0)` for the others. -/
theorem blockIndex2 : ∀ t : Fin cfg2.N,
    win2_0.index t = ![t.val, 0] ∧ win2_1.index t = ![0, 0] ∧ win2_2.index t = ![0, 0]
    ∧ win2_3.index t = ![0, 0] ∧ win2_4.index t = ![0, 0] ∧ win2_5.index t = ![t.val, 0] :=
  (by decide +kernel : ∀ t : Fin grid2.N, _)

variable (V : (c : Dev nD) → (b : Ref sig .tc) → Buf (Elt Ideal) ((c : Thread nD τ).loc b)) (c : Dev nD)

/-- What point `t` writes back is row block `t` of the normalised array. -/
theorem flushed2 (t : Fin cfg2.N) :
    (dat2 (F := Ideal) V c).flushed 5 t = ((cfg2.win 5).blk t).view.read (Elt Ideal)
      (normClamp (V c main_v38_0) (row (V c main_v40)) (row (V c main_v44)) (row (V c main_v45)) (row (V c main_v46))) := by
  show (cfg2.win 5).cut (grid2.coords t) ((dat2 (F := Ideal) V c).after 5 t) = _
  rw [after2_5, out2_5, View.canon_unit_zero origin2]
  simp only [View.ld_unit_zero (S := S5000x128) origin2, View.ld_unit_zero (S := S1x128) origin2]
  obtain ⟨e0, e1, e2, e3, e4, e5⟩ := blockIndex2 t
  funext y
  refine (congrFun (pay2 _ _ _ _ _) y).trans ?_
  have s5 : RowShift (t.val * 5000) ((cfg2.win 5).blk t).view.emb := .of e5
  have s0 : RowShift (t.val * 5000) ((cfg2.win 0).blk t).view.emb := .of e0
  have s1 : RowShift 0 ((cfg2.win 1).blk t).view.emb := .of e1
  have s2 : RowShift 0 ((cfg2.win 2).blk t).view.emb := .of e2
  have s3 : RowShift 0 ((cfg2.win 3).blk t).view.emb := .of e3
  have s4 : RowShift 0 ((cfg2.win 4).blk t).view.emb := .of e4
  exact normClamp_rowShift s5 s1 s2 s3 s4 s0 (V c main_v38_0) (V c main_v40) (V c main_v44) (V c main_v45) (V c main_v46) y

/-- Row `r` of the result is in the block of point `r / 5000`. -/
theorem cover2 (i : S100000x128.Idx) :
    ∃ t : Fin cfg2.N, (cfg2.win 5).flush t = true ∧ i ∈ ((cfg2.win 5).blk t).view.set := by
  let t : Fin cfg2.N := ⟨(i 0).val / 5000, Nat.div_lt_of_lt_mul (i 0).isLt⟩
  obtain ⟨-, -, -, -, -, h⟩ := blockIndex2 t
  refine ⟨t, flush2_5 t, ?_⟩
  show i ∈ ((View.whole main_v47).slice (win2_5.rect t)).set
  rw [View.set_slice_whole, Rect.mem_set_unit]
  exact mem_rowBlock i h (by decide)

theorem normClamp2 :
    (dat2 (F := Ideal) V c).arrAt 5 cfg2.N = normClamp (V c main_v38_0)
      (fun q : Fin 128 => V c main_v40 (ix2 (0 : Fin 1) q)) (fun q : Fin 128 => V c main_v44 (ix2 (0 : Fin 1) q))
      (fun q : Fin 128 => V c main_v45 (ix2 (0 : Fin 1) q)) (fun q : Fin 128 => V c main_v46 (ix2 (0 : Fin 1) q)) :=
  (dat2 (F := Ideal) V c).arrAt_eq_of_cover 5 _ (fun t _ => flushed2 V c t) cover2

end Cert.KernelIdeal.Blocks

end
-- ==== Proof.Rows.lean ====
import proofs.«429891_j34660386078849_1_alg».proof.Proof.RowBlocks

noncomputable section

namespace Cert.Gcn

open Idealize.ShloMosaic Idealize.ShloMosaic.ValueIdx

variable {n : ℕ}

/-- A vector reshaped to one row has the vector's entry `q` at `(0, q)`. -/
theorem row_cast {r : Mat 1 n} {v v' : (⟨1, ![n]⟩ : Shape).Idx → EReal} {h : (⟨1, ![n]⟩ : Shape).ShapeCasts ⟨2, ![1, n]⟩}
    (hr : r = shapeCast ⟨2, ![1, n]⟩ v h) (hv : v = v') : row r = fun q => v' (ix1 q) := by
  subst hr hv
  exact funext fun q => shapeCast_a_1a_apply _ _ 0 q

/-- The layer's normalisation from its pieces: the biased array, its two rows of column sums, the mean and variance rows
    made from them by dividing by the number of nodes, and the scale and shift rows. -/
theorem normOfSquares_of {N : ℕ} {pre b0 : Mat N n} {s1 s2 mean var g be d : Mat 1 n} {gv bev : Fin n → EReal}
    (h0 : b0 = pre) (h1 : s1 = fun j => colSum pre (j 1)) (h2 : s2 = fun j => colSumSq pre (j 1)) (hd : ∀ j, d j = nodes)
    (hm : mean = Host.divf (F := Ideal) (φ := .f32) s1 d)
    (hv : var = subf (F := Ideal) (φ := .f32) (Host.divf s2 d) (mulf (Host.divf s1 d) (Host.divf s1 d)))
    (hg : row g = gv) (hbe : row be = bev) :
    normClamp b0 (row mean) (row var) (row g) (row be) = normOfSquares pre gv bev := by
  obtain rfl : d = fun _ => nodes := funext hd
  subst h0 h1 h2 hm hv hg hbe
  rfl

end Cert.Gcn

end
-- ==== Proof.KernelLayer1.lean ====
import proofs.«429891_j34660386078849_1_alg».proof.Proof.Gen.KernelIdeal.Frame
import proofs.«429891_j34660386078849_1_alg».proof.Proof.Kept
import proofs.«429891_j34660386078849_1_alg».proof.Proof.EdgeOps
import proofs.«429891_j34660386078849_1_alg».proof.Proof.TakeOps
import proofs.«429891_j34660386078849_1_alg».proof.Proof.TakeStretch
import proofs.«429891_j34660386078849_1_alg».proof.Proof.MatmulBlocks0
import proofs.«429891_j34660386078849_1_alg».proof.Proof.BiasStats1
import proofs.«429891_j34660386078849_1_alg».proof.Proof.NormRelu2
import proofs.«429891_j34660386078849_1_alg».proof.Proof.Rows
import Idealize.ShloMosaic.Lib.StableHlo.Run

set_option maxRecDepth 16384

noncomputable section

namespace Cert.KernelIdeal.Chain

open Cert.KernelIdeal Cert.KernelIdeal.Gen Cert.KernelIdeal.Edges Cert.KernelIdeal.Blocks Cert.KernelIdeal.Kept Cert.Gcn
open Idealize.ShloMosaic Idealize.ShloMosaic.ValueIdx Idealize.ShloMosaic.StableHlo Idealize.ShloMosaic.TcCoe Idealize.SL.Sem

section Edges

variable (m : (ℓ : Loc nD τ sig) → Buf (Elt Ideal) ℓ) (ρ : Dev nD → PrngReg)

set_option maxHeartbeats 8000000 in
theorem weights1 (c : Dev nD) :
    @Eq (FVec Ideal S1700000x1 .f32) (W1 (F := Ideal) m ρ c (Proc.devRef .tc main_v29))
      (edgeWeights (F := Ideal) (sources (m ((c.tc : Thread nD τ).loc main_arg1))) (targets (m ((c.tc : Thread nD τ).loc main_arg1)))) := by
  show StableHlo.after hostOps0 (W0 m ρ c) _ = _
  after_results_simp
  rfl

/-- At boundary 1 the three edge arrays are the sources, the targets and the edge weights of the launch's edge list. -/
theorem edges1 (c : Dev nD) :
    W1 (F := Ideal) m ρ c (Proc.devRef .tc main_v3) = sources (m ((c.tc : Thread nD τ).loc main_arg1))
    ∧ W1 (F := Ideal) m ρ c (Proc.devRef .tc main_v6) = targets (m ((c.tc : Thread nD τ).loc main_arg1))
    ∧ W1 (F := Ideal) m ρ c (Proc.devRef .tc main_v29)
        = edgeWeights (F := Ideal) (sources (m ((c.tc : Thread nD τ).loc main_arg1))) (targets (m ((c.tc : Thread nD τ).loc main_arg1))) := by
  refine ⟨?_, ?_, weights1 m ρ c⟩ <;>
  · show StableHlo.after hostOps0 (W0 m ρ c) _ = _
    after_results
    rfl

end Edges

section Stretches

variable (V : Valuation τ sig (Elt Ideal))

/-- The number of nodes along a row of 128 columns. -/
abbrev nodesRow1 : FVec Ideal S1x128 .f32 := broadcastInDim S1x128 ![] bcast_S_S1x128 (constant (F := Ideal) S_ .f32 0x47C35000#32)

/-- The aggregation stretch scatters, by the targets' column, the taken rows times the edge weights into zeros. -/
theorem aggregate1_of :
    @Eq (FVec Ideal S100000x128 .f32) (StableHlo.after hostOps1_1 V (Proc.devRef .tc main_v36))
      (Host.scatterAdd scatter_S100000x128_S1700000x1_S1700000x128_1_0_0_1
        (broadcastInDim S100000x128 ![] bcast_S_S100000x128 (constant (F := Ideal) S_ .f32 0x00000000#32))
        (asColumn (V (Proc.devRef .tc main_v6)))
        (mulf (V (Proc.devRef .tc main_v31))
          (broadcastInDim S1700000x128 ![0, 1] bcast_S1700000x1_S1700000x128_0_1 (V (Proc.devRef .tc main_v29))))) := by
  after_results
  unfold asColumn
  rfl

theorem biasRow1_of :
    @Eq (FVec Ideal S1x128 .f32) (StableHlo.after hostOps1_1 V (Proc.devRef .tc main_v37))
      (shapeCast S1x128 (V (Proc.devRef .tc main_arg3)) shapeCasts_S128_S1x128) := by
  after_results
  rfl

/-- The mean row is the row of column sums divided by the number of nodes. -/
theorem meanRow1_of :
    @Eq (FVec Ideal S1x128 .f32) (StableHlo.after hostOps2 V (Proc.devRef .tc main_v40))
      (Host.divf (V (Proc.devRef .tc main_v38_1)) nodesRow1) := by
  after_results

/-- The variance row is the mean of the squares minus the square of the mean. -/
theorem varRow1_of :
    @Eq (FVec Ideal S1x128 .f32) (StableHlo.after hostOps2 V (Proc.devRef .tc main_v44))
      (subf (Host.divf (V (Proc.devRef .tc main_v38_2)) nodesRow1)
        (mulf (Host.divf (V (Proc.devRef .tc main_v38_1)) nodesRow1) (Host.divf (V (Proc.devRef .tc main_v38_1)) nodesRow1))) := by
  after_results

theorem scaleRow1_of :
    @Eq (FVec Ideal S1x128 .f32) (StableHlo.after hostOps2 V (Proc.devRef .tc main_v45))
      (shapeCast S1x128 (V (Proc.devRef .tc main_arg4)) shapeCasts_S128_S1x128) := by
  after_results
  rfl

theorem shiftRow1_of :
    @Eq (FVec Ideal S1x128 .f32) (StableHlo.after hostOps2 V (Proc.devRef .tc main_v46))
      (shapeCast S1x128 (V (Proc.devRef .tc main_arg5)) shapeCasts_S128_S1x128) := by
  after_results
  rfl

end Stretches

variable (m : (ℓ : Loc nD τ sig) → Buf (Elt Ideal) ℓ) (ρ : Dev nD → PrngReg)

/-- The layer's input times its weights; that product aggregated over the edges; and the aggregate plus the bias row. -/
abbrev prod1 (c : Dev nD) : Mat 100000 128 := mm (m ((c.tc : Thread nD τ).loc main_arg0)) (m ((c.tc : Thread nD τ).loc main_arg2))
abbrev agg1 (c : Dev nD) : Mat 100000 128 :=
  aggregateTaken128 (F := Ideal) (W1 m ρ c (Proc.devRef .tc main_v3)) (W1 m ρ c (Proc.devRef .tc main_v6)) (W1 m ρ c (Proc.devRef .tc main_v29)) (prod1 m c)
abbrev pre1 (c : Dev nD) : Mat 100000 128 := addRow (agg1 m ρ c) (fun q : Fin 128 => m ((c.tc : Thread nD τ).loc main_arg3) (ix1 q))

theorem product1 (c : Dev nD) : @Eq (Mat 100000 128) (W2 (F := Ideal) m ρ c (Proc.devRef .tc main_v30)) (prod1 m c) :=
  ((W2_arr m ρ c 2).trans (matmul0 (V1 m ρ) c)).trans (congrArg₂ mm (main_arg0_0_1 m ρ c) (main_arg2_0_1 m ρ c))

/-- What the bias-and-sums region is entered with: the aggregate of the taken rows of the product, and the bias row. -/
theorem entry1 (c : Dev nD) :
    addRow (V4 (F := Ideal) m ρ c main_v36) (fun q : Fin 128 => V4 (F := Ideal) m ρ c main_v37 (ix2 (0 : Fin 1) q)) = pre1 m ρ c := by
  have ht : W3 (F := Ideal) m ρ c (Proc.devRef .tc main_v31) = takeRows128 (F := Ideal) (W1 m ρ c (Proc.devRef .tc main_v3)) (prod1 m c) := by
    refine (takeStretch1 (W2 m ρ c)).trans ?_
    rw [main_v3_1_2 m ρ c, product1 m ρ c]
  have ha : V4 (F := Ideal) m ρ c main_v36 = agg1 m ρ c := by
    refine (aggregate1_of (W3 m ρ c)).trans ?_
    rw [ht, main_v6_1_3 m ρ c, main_v29_1_3 m ρ c]
    rfl
  rw [ha, show (fun q : Fin 128 => V4 (F := Ideal) m ρ c main_v37 (ix2 (0 : Fin 1) q)) = _ from
    row_cast (biasRow1_of (W3 m ρ c)) (main_arg3_0_3 m ρ c)]

theorem layer1 (c : Dev nD) :
    W7 (F := Ideal) m ρ c (Proc.devRef .tc main_v47)
      = normOfSquares
          (addRow (aggregateTaken128 (F := Ideal) (W1 m ρ c (Proc.devRef .tc main_v3)) (W1 m ρ c (Proc.devRef .tc main_v6)) (W1 m ρ c (Proc.devRef .tc main_v29))
                    (mm (m ((c.tc : Thread nD τ).loc main_arg0)) (m ((c.tc : Thread nD τ).loc main_arg2))))
                  (fun q : Fin 128 => m ((c.tc : Thread nD τ).loc main_arg3) (ix1 q)))
          (fun q : Fin 128 => m ((c.tc : Thread nD τ).loc main_arg4) (ix1 q))
          (fun q : Fin 128 => m ((c.tc : Thread nD τ).loc main_arg5) (ix1 q)) := by
  have he := entry1 m ρ c
  show W7 m ρ c (Proc.devRef .tc (Pipeline.arrRef spec2 5)) = _
  refine (W7_arr m ρ c 5).trans ((normClamp2 (V6 m ρ) c).trans ?_)
  exact normOfSquares_of
    ((main_v38_0_5_6 m ρ c).trans (((W5_arr m ρ c 2).trans (biased1 (V4 m ρ) c)).trans he))
    (((W5_arr m ρ c 3).trans (colSums1 (V4 m ρ) c)).trans (by rw [he]; rfl))
    (((W5_arr m ρ c 4).trans (colSumSqs1 (V4 m ρ) c)).trans (by rw [he]; rfl))
    (fun _ => rfl) (meanRow1_of (W5 m ρ c)) (varRow1_of (W5 m ρ c))
    (row_cast (scaleRow1_of (W5 m ρ c)) (main_arg4_0_5 m ρ c)) (row_cast (shiftRow1_of (W5 m ρ c)) (main_arg5_0_5 m ρ c))

end Cert.KernelIdeal.Chain

end
-- ==== Proof.MatmulBlocks3.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body multiplies its row block by the weights. -/
theorem pay3 (x : Vec Ideal S5000x128 .bf16) (w : Vec Ideal S128x128 .f32) : k3_pay1 (F := Ideal) x w = mm x w := by
  unfold k3_pay1
  simp only [shapeCast_self]
  exact matmul_plain _ _

/-- The block indices at point `t`: `(t, 0)` for the row-blocked arrays, `(0, 0)` for the others. -/
theorem blockIndex3 : ∀ t : Fin cfg3.N,
    win3_0.index t = ![t.val, 0] ∧ win3_1.index t = ![0, 0] ∧ win3_2.index t = ![t.val, 0] :=
  (by decide +kernel : ∀ t : Fin grid3.N, _)

variable (V : (c : Dev nD) → (b : Ref sig .tc) → Buf (Elt Ideal) ((c : Thread nD τ).loc b))

/-- What point `t` writes back is row block `t` of the matrix product. -/
theorem flushed3 (c : Dev nD) (t : Fin cfg3.N) :
    (dat3 (F := Ideal) V c).flushed 2 t = ((cfg3.win 2).blk t).view.read (Elt Ideal) (mm (V c main_v47) (V c main_arg6)) := by
  show (cfg3.win 2).cut (grid3.coords t) ((dat3 (F := Ideal) V c).after 2 t) = _
  rw [after3_2, out3_2, View.canon_unit_zero origin2]
  simp only [View.ld_unit_zero (S := S5000x128) origin2, View.ld_unit_zero (S := S128x128) origin2]
  obtain ⟨e0, e1, e2⟩ := blockIndex3 t
  funext y
  refine (congrFun (pay3 _ _) y).trans ?_
  have s2 : RowShift (t.val * 5000) ((cfg3.win 2).blk t).view.emb := .of e2
  have s0 : RowShift (t.val * 5000) ((cfg3.win 0).blk t).view.emb := .of e0
  have s1 : RowShift 0 ((cfg3.win 1).blk t).view.emb := .of e1
  exact mm_rowShift s2 s0 s1 (V c main_v47) (V c main_arg6) y

/-- Row `r` of the result is in the block of point `r / 5000`. -/
theorem cover3 (i : S100000x128.Idx) :
    ∃ t : Fin cfg3.N, (cfg3.win 2).flush t = true ∧ i ∈ ((cfg3.win 2).blk t).view.set := by
  let t : Fin cfg3.N := ⟨(i 0).val / 5000, Nat.div_lt_of_lt_mul (i 0).isLt⟩
  obtain ⟨-, -, h⟩ := blockIndex3 t
  refine ⟨t, flush3_2 t, ?_⟩
  show i ∈ ((View.whole main_v48).slice (win3_2.rect t)).set
  rw [View.set_slice_whole, Rect.mem_set_unit]
  exact mem_rowBlock i h (by decide)

theorem matmul3 (c : Dev nD) :
    (dat3 (F := Ideal) V c).arrAt 2 cfg3.N = mm (V c main_v47) (V c main_arg6) :=
  (dat3 (F := Ideal) V c).arrAt_eq_of_cover 2 _ (fun t _ => flushed3 V c t) cover3

end Cert.KernelIdeal.Blocks

end
-- ==== Proof.BiasStats4.lean ====
import proofs.«429891_j34660386078849_1_alg».proof.Proof.Gen.KernelIdeal.Frame
import proofs.«429891_j34660386078849_1_alg».proof.Proof.BiasStats

noncomputable section

namespace Cert.KernelIdeal.Blocks

open Cert.KernelIdeal Cert.KernelIdeal.Gen Cert.Gcn Idealize.ShloMosaic Idealize.ShloMosaic.ValueIdx Idealize.ShloMosaic.TcCoe Idealize.SL.Sem BiasStats
open Idealize.ShloMosaic.Pipeline (Dat Cfg Window)
open scoped BigOperators

namespace BiasStats4

variable (V : (c : Dev nD) → (b : Ref sig .tc) → Buf (Elt Ideal) ((c : Thread nD τ).loc b)) (c : Dev nD)

abbrev xblk (t : Fin cfg4.N) : Vec Ideal S5000x128 .f32 := iblk4 V c 0 t
abbrev bblk (t : Fin cfg4.N) : Vec Ideal S1x128 .f32 := iblk4 V c 1 t
abbrev prev (t : Fin cfg4.N) := outsAt4 V c (t.val - 1) (Nat.lt_of_le_of_lt (Nat.sub_le _ _) t.isLt)
abbrev biased : Mat 100000 128 := addRow (V c main_v54) fun q => V c main_v55 (ix2 (0 : Fin 1) q)

/-- Point 0: the biased block, and its column sums and sums of squares added to zero rows. -/
theorem outs_A (t : Fin cfg4.N) (h0 : t.val % 20 = 0) :
    outsAt4 V c t.val t.isLt = (k4_pay3 (xblk V c t) (bblk V c t), k4_pay4 (xblk V c t) (bblk V c t) (k4_pay1 (F := Ideal)), k4_pay5 (xblk V c t) (bblk V c t) (k4_pay2 (F := Ideal))) := by
  rw [outsAt4_A V c t h0]
  unfold out4_A_2 out4_A_3 out4_A_4
  rw [View.read_writes_eq_canon _ _ _ fun _ => cover4_A_2 .., View.read_writes_eq_canon _ _ _ fun _ => cover4_A_3 .., View.read_writes_eq_canon _ _ _ fun _ => cover4_A_4 ..]
  unfold kernelRun4_A
  dsimp only
  sl_unfold_words
  rw [View.canon_unit_zero hz, View.canon_cons_unit_zero (S := S1x128) hz, View.canon_cons_unit_zero (S := S1x128) hz, View.readCov_unit_zero (S := S1x128) _ hz, View.readCov_unit_zero (S := S1x128) _ hz]
  simp only [View.readAt_eq_ld, (hs4_0 t).read_unread, (hs4_1 t).read_unread, View.ld_unit_zero (S := S5000x128) hz, View.ld_unit_zero (S := S1x128) hz]

/-- Any later point: the same block function, the two sums added to the rows the point before left. -/
theorem outs_B (t : Fin cfg4.N) (h0 : ¬t.val % 20 = 0) :
    outsAt4 V c t.val t.isLt = (k4_pay3 (xblk V c t) (bblk V c t), k4_pay4 (xblk V c t) (bblk V c t) (prev V c t).2.1, k4_pay5 (xblk V c t) (bblk V c t) (prev V c t).2.2) := by
  rw [outsAt4_B V c t h0]
  unfold out4_B_2 out4_B_3 out4_B_4
  rw [View.read_writes_eq_canon _ _ _ fun _ => cover4_B_2 .., View.read_writes_eq_canon _ _ _ fun _ => cover4_B_3 .., View.read_writes_eq_canon _ _ _ fun _ => cover4_B_4 ..]
  unfold kernelRun4_B
  dsimp only
  sl_unfold_words
  rw [View.canon_unit_zero hz, View.canon_unit_zero hz, View.canon_unit_zero hz]
  simp only [View.readAt_eq_ld, (hs4_0 t).read_unread, (hs4_1 t).read_unread, (hs4_3 t).read_unread, (hs4_4 t).read_unread, View.ld_unit_zero (S := S5000x128) hz, View.ld_unit_zero (S := S1x128) hz]

theorem rows_lt (t : Fin cfg4.N) (p : Fin 5000) : 5000 * t.val + p.val < 100000 := by
  have := lt_of_lt_of_eq t.isLt N_4
  have := p.isLt
  omega

theorem idx_facts : ∀ t : Fin cfg4.N, win4_0.index t (0 : Fin 2) = t.val ∧ win4_0.index t (1 : Fin 2) = 0
    ∧ win4_1.index t (1 : Fin 2) = 0 ∧ win4_2.index t (0 : Fin 2) = t.val ∧ win4_2.index t (1 : Fin 2) = 0
    ∧ win4_3.index t (1 : Fin 2) = 0 ∧ win4_4.index t (1 : Fin 2) = 0 :=
  (by decide +kernel : ∀ t : Fin grid4.N, _)

/-- Block coordinates to array coordinates, for all five arrays: rows advance by 5000 a point, columns never. -/
theorem embs (t : Fin cfg4.N) (p : Fin 5000) (q : Fin 128) :
    ((cfg4.win 0).blk t).view.emb (ix2 p q) = ix2 ⟨5000 * t.val + p.val, rows_lt t p⟩ q
    ∧ ((cfg4.win 2).blk t).view.emb (ix2 p q) = ix2 ⟨5000 * t.val + p.val, rows_lt t p⟩ q
    ∧ ((cfg4.win 1).blk t).view.emb (ix2 (0 : Fin 1) q) = ix2 (0 : Fin 1) q
    ∧ ((cfg4.win 3).blk t).view.emb (ix2 (0 : Fin 1) q) = ix2 (0 : Fin 1) q
    ∧ ((cfg4.win 4).blk t).view.emb (ix2 (0 : Fin 1) q) = ix2 (0 : Fin 1) q := by
  obtain ⟨e0, e1, e2, e3, e4, e5, e6⟩ := idx_facts t
  exact ⟨rows_idx e0 e1 rfl rfl _, rows_idx e3 e4 rfl rfl _, row_idx e2 rfl, row_idx e5 rfl, row_idx e6 rfl⟩

/-- So the biased block at point `t` is rows `5000 t …` of the biased array. -/
theorem entry (t : Fin cfg4.N) (p : Fin 5000) (q : Fin 128) :
    k4_pay3 (F := Ideal) (xblk V c t) (bblk V c t) (ix2 p q) = rowN (biased V c) q (5000 * t.val + p.val) := by
  obtain ⟨e0, -, e1, -⟩ := embs t p q
  rw [rowN_lt _ _ (rows_lt t p)]
  exact (bias_apply _ _ _ _ _ p q).trans (congrArg₂ (· + ·) (show xblk V c t (ix2 p q) = _ from congrArg (V c main_v54) e0)
    (show bblk V c t (ix2 (0 : Fin 1) q) = _ from congrArg (V c main_v55) e1))

/-- The column sums so far: `stat_run` with the identity as summand. -/
theorem sums_inv (q : Fin 128) : ∀ k (h : k < cfg4.N),
    (outsAt4 V c k h).2.1 (ix2 (0 : Fin 1) q) = ∑ r ∈ Finset.range (5000 * (k + 1)), id (rowN (biased V c) q r) :=
  stat_run (biased V c) id q (fun k h => (outsAt4 V c k h).2.1) k4_pay1 Ideal.ofBits_zero_f32
    (fun k h => k4_pay3 (xblk V c ⟨k, h⟩) (bblk V c ⟨k, h⟩)) (fun k h p => entry V c ⟨k, h⟩ p q) _ _ _ _ _
    (fun h => congrArg (·.2.1) (outs_A V c ⟨0, h⟩ rfl)) fun k h => congrArg (·.2.1) (outs_B V c ⟨k + 1, h⟩ (succ_mod_ne (lt_of_lt_of_eq h N_4)))

/-- The column sums of squares so far: `stat_run` with the square as summand. -/
theorem sumSqs_inv (q : Fin 128) : ∀ k (h : k < cfg4.N),
    (outsAt4 V c k h).2.2 (ix2 (0 : Fin 1) q) = ∑ r ∈ Finset.range (5000 * (k + 1)), (fun z => z * z) (rowN (biased V c) q r) :=
  stat_run (biased V c) (fun z => z * z) q (fun k h => (outsAt4 V c k h).2.2) k4_pay2 Ideal.ofBits_zero_f32
    (fun k h => mulf (k4_pay3 (xblk V c ⟨k, h⟩) (bblk V c ⟨k, h⟩)) (k4_pay3 (xblk V c ⟨k, h⟩) (bblk V c ⟨k, h⟩)))
    (fun k h p => congrArg₂ (· * ·) (entry V c ⟨k, h⟩ p q) (entry V c ⟨k, h⟩ p q)) _ _ _ _ _
    (fun h => congrArg (·.2.2) (outs_A V c ⟨0, h⟩ rfl)) fun k h => congrArg (·.2.2) (outs_B V c ⟨k + 1, h⟩ (succ_mod_ne (lt_of_lt_of_eq h N_4)))

/-- Output 2 block by block: both cases store the same biased block. -/
theorem biased_flushed (t : Fin cfg4.N) :
    (dat4 (F := Ideal) V c).flushed 2 t = ((cfg4.win 2).blk t).view.read (Elt Ideal) (biased V c) := by
  show (cfg4.win 2).cut (grid4.coords t) ((dat4 (F := Ideal) V c).after 2 t) = _
  rw [after4_2]
  funext y
  obtain ⟨p, q, rfl⟩ : ∃ (p : Fin 5000) (q : Fin 128), y = ix2 p q := ⟨y 0, y 1, eq_ix2 y⟩
  show (outsAt4 V c t.val t.isLt).1 (ix2 p q) = biased V c (((cfg4.win 2).blk t).view.emb (ix2 p q))
  rw [(embs t p q).2.1, ← rowN_lt (biased V c) q (rows_lt t p), ← entry V c t p q]
  by_cases h0 : t.val % 20 = 0
  · rw [outs_A V c t h0]
  · rw [outs_B V c t h0]

theorem last (t : Fin cfg4.N) (h : t.val % 20 = 19) : 5000 * (t.val + 1) = 100000 := by
  have := lt_of_lt_of_eq t.isLt N_4
  omega

/-- A one-row output is determined by its entries `(0, q)`. -/
theorem row_flushed3 (t : Fin cfg4.N) (X : Vec Ideal S1x128 .f32) (G : Mat 1 128) (h : ∀ q : Fin 128, X (ix2 (0 : Fin 1) q) = G (ix2 (0 : Fin 1) q)) :
    (cfg4.win 3).cut (grid4.coords t) X = ((cfg4.win 3).blk t).view.read (Elt Ideal) G :=
  row_funext fun q => (h q).trans (congrArg G (embs t 0 q).2.2.2.1).symm

theorem row_flushed4 (t : Fin cfg4.N) (X : Vec Ideal S1x128 .f32) (G : Mat 1 128) (h : ∀ q : Fin 128, X (ix2 (0 : Fin 1) q) = G (ix2 (0 : Fin 1) q)) :
    (cfg4.win 4).cut (grid4.coords t) X = ((cfg4.win 4).blk t).view.read (Elt Ideal) G :=
  row_funext fun q => (h q).trans (congrArg G (embs t 0 q).2.2.2.2).symm

/-- Output 3 is stored when the running sums have taken in all 100000 rows. -/
theorem colSums_flushed (t : Fin cfg4.N) (hf : (cfg4.win 3).flush t = true) :
    (dat4 (F := Ideal) V c).flushed 3 t = ((cfg4.win 3).blk t).view.read (Elt Ideal) fun j => colSum (biased V c) (j 1) := by
  show (cfg4.win 3).cut (grid4.coords t) ((dat4 (F := Ideal) V c).after 3 t) = _
  rw [after4_3]
  refine row_flushed3 t _ _ fun q => ?_
  rw [sums_inv V c q t.val t.isLt, last t ((flush4_3 t).mp hf)]
  exact (sum_rows _ id q).symm

/-- Output 4 likewise. -/
theorem colSumSqs_flushed (t : Fin cfg4.N) (hf : (cfg4.win 4).flush t = true) :
    (dat4 (F := Ideal) V c).flushed 4 t = ((cfg4.win 4).blk t).view.read (Elt Ideal) fun j => colSumSq (biased V c) (j 1) := by
  show (cfg4.win 4).cut (grid4.coords t) ((dat4 (F := Ideal) V c).after 4 t) = _
  rw [after4_4]
  refine row_flushed4 t _ _ fun q => ?_
  rw [sumSqs_inv V c q t.val t.isLt, last t ((flush4_4 t).mp hf)]
  exact (sum_rows _ (fun z => z * z) q).symm

/-- Row `r` is row `r % 5000` of block `r / 5000`. -/
theorem cover2 (i : S100000x128.Idx) : ∃ t : Fin cfg4.N, (cfg4.win 2).flush t = true ∧ i ∈ ((cfg4.win 2).blk t).view.set := by
  have h0 : (i 0).val < 100000 := idx2_lt0 i
  have ht : (i 0).val / 5000 < cfg4.N := lt_of_lt_of_eq (by omega) N_4.symm
  exact ⟨⟨(i 0).val / 5000, ht⟩, flush4_2 _, mem_of_emb ((embs ⟨_, ht⟩ ⟨(i 0).val % 5000, Nat.mod_lt _ (by decide)⟩ (i 1)).2.1.trans
    (Shape.idx_ext₂ (Nat.div_add_mod _ 5000) rfl))⟩

abbrev tLast : Fin cfg4.N := ⟨19, lt_of_lt_of_eq (by decide) N_4.symm⟩

/-- A one-row output has a single block; point 19 stores it. -/
theorem cover3 (i : S1x128.Idx) : ∃ t : Fin cfg4.N, (cfg4.win 3).flush t = true ∧ i ∈ ((cfg4.win 3).blk t).view.set :=
  ⟨tLast, (flush4_3 tLast).mpr rfl, mem_of_emb ((embs tLast 0 (i 1)).2.2.2.1.trans (row_eq i))⟩

theorem cover4 (i : S1x128.Idx) : ∃ t : Fin cfg4.N, (cfg4.win 4).flush t = true ∧ i ∈ ((cfg4.win 4).blk t).view.set :=
  ⟨tLast, (flush4_4 tLast).mpr rfl, mem_of_emb ((embs tLast 0 (i 1)).2.2.2.2.trans (row_eq i))⟩

end BiasStats4

section Outputs
open BiasStats4
variable (V : (c : Dev nD) → (b : Ref sig .tc) → Buf (Elt Ideal) ((c : Thread nD τ).loc b))

theorem biased4 (c : Dev nD) :
    (dat4 (F := Ideal) V c).arrAt 2 cfg4.N = addRow (V c main_v54) (fun q : Fin 128 => V c main_v55 (ix2 (0 : Fin 1) q)) :=
  (dat4 (F := Ideal) V c).arrAt_eq_of_cover 2 (biased V c) (fun t _ => biased_flushed V c t) cover2

theorem colSums4 (c : Dev nD) :
    (dat4 (F := Ideal) V c).arrAt 3 cfg4.N = fun j => colSum (addRow (V c main_v54) (fun q : Fin 128 => V c main_v55 (ix2 (0 : Fin 1) q))) (j 1) :=
  (dat4 (F := Ideal) V c).arrAt_eq_of_cover 3 _ (colSums_flushed V c) cover3

theorem colSumSqs4 (c : Dev nD) :
    (dat4 (F := Ideal) V c).arrAt 4 cfg4.N = fun j => colSumSq (addRow (V c main_v54) (fun q : Fin 128 => V c main_v55 (ix2 (0 : Fin 1) q))) (j 1) :=
  (dat4 (F := Ideal) V c).arrAt_eq_of_cover 4 _ (colSumSqs_flushed V c) cover4

end Outputs
end Cert.KernelIdeal.Blocks
end
-- ==== Proof.NormRelu5.lean ====
import proofs.«429891_j34660386078849_1_alg».proof.Proof.Gen.KernelIdeal.Frame
import proofs.«429891_j34660386078849_1_alg».proof.Proof.RowBlocks
import proofs.«429891_j34660386078849_1_alg».proof.Proof.NormRelu2

noncomputable section

namespace Cert.KernelIdeal.Blocks

open Cert.KernelIdeal Cert.KernelIdeal.Gen Cert.Gcn Idealize.ShloMosaic Idealize.ShloMosaic.ValueIdx Idealize.ShloMosaic.TcCoe

/-- The block indices at point `t`: `(t, 0)` for the row-blocked arrays, `(0, 0)` for the others. -/
theorem blockIndex5 : ∀ t : Fin cfg5.N,
    win5_0.index t = ![t.val, 0] ∧ win5_1.index t = ![0, 0] ∧ win5_2.index t = ![0, 0]
    ∧ win5_3.index t = ![0, 0] ∧ win5_4.index t = ![0, 0] ∧ win5_5.index t = ![t.val, 0] :=
  (by decide +kernel : ∀ t : Fin grid5.N, _)

variable (V : (c : Dev nD) → (b : Ref sig .tc) → Buf (Elt Ideal) ((c : Thread nD τ).loc b)) (c : Dev nD)

/-- What point `t` writes back is row block `t` of the normalised array. -/
theorem flushed5 (t : Fin cfg5.N) :
    (dat5 (F := Ideal) V c).flushed 5 t = ((cfg5.win 5).blk t).view.read (Elt Ideal)
      (normClamp (V c main_v56_0) (row (V c main_v58)) (row (V c main_v62)) (row (V c main_v63)) (row (V c main_v64))) := by
  show (cfg5.win 5).cut (grid5.coords t) ((dat5 (F := Ideal) V c).after 5 t) = _
  rw [after5_5, out5_5, View.canon_unit_zero origin2]
  simp only [View.ld_unit_zero (S := S5000x128) origin2, View.ld_unit_zero (S := S1x128) origin2]
  obtain ⟨e0, e1, e2, e3, e4, e5⟩ := blockIndex5 t
  funext y
  refine (congrFun (pay2 _ _ _ _ _) y).trans ?_
  have s5 : RowShift (t.val * 5000) ((cfg5.win 5).blk t).view.emb := .of e5
  have s0 : RowShift (t.val * 5000) ((cfg5.win 0).blk t).view.emb := .of e0
  have s1 : RowShift 0 ((cfg5.win 1).blk t).view.emb := .of e1
  have s2 : RowShift 0 ((cfg5.win 2).blk t).view.emb := .of e2
  have s3 : RowShift 0 ((cfg5.win 3).blk t).view.emb := .of e3
  have s4 : RowShift 0 ((cfg5.win 4).blk t).view.emb := .of e4
  exact normClamp_rowShift s5 s1 s2 s3 s4 s0 (V c main_v56_0) (V c main_v58) (V c main_v62) (V c main_v63) (V c main_v64) y

/-- Row `r` of the result is in the block of point `r / 5000`. -/
theorem cover5 (i : S100000x128.Idx) :
    ∃ t : Fin cfg5.N, (cfg5.win 5).flush t = true ∧ i ∈ ((cfg5.win 5).blk t).view.set := by
  let t : Fin cfg5.N := ⟨(i 0).val / 5000, Nat.div_lt_of_lt_mul (i 0).isLt⟩
  obtain ⟨-, -, -, -, -, h⟩ := blockIndex5 t
  refine ⟨t, flush5_5 t, ?_⟩
  show i ∈ ((View.whole main_v65).slice (win5_5.rect t)).set
  rw [View.set_slice_whole, Rect.mem_set_unit]
  exact mem_rowBlock i h (by decide)

theorem normClamp5 :
    (dat5 (F := Ideal) V c).arrAt 5 cfg5.N = normClamp (V c main_v56_0)
      (fun q : Fin 128 => V c main_v58 (ix2 (0 : Fin 1) q)) (fun q : Fin 128 => V c main_v62 (ix2 (0 : Fin 1) q))
      (fun q : Fin 128 => V c main_v63 (ix2 (0 : Fin 1) q)) (fun q : Fin 128 => V c main_v64 (ix2 (0 : Fin 1) q)) :=
  (dat5 (F := Ideal) V c).arrAt_eq_of_cover 5 _ (fun t _ => flushed5 V c t) cover5

end Cert.KernelIdeal.Blocks

end
-- ==== Proof.KernelLayer2.lean ====
import proofs.«429891_j34660386078849_1_alg».proof.Proof.Gen.KernelIdeal.Frame
import proofs.«429891_j34660386078849_1_alg».proof.Proof.Kept
import proofs.«429891_j34660386078849_1_alg».proof.Proof.EdgeOps
import proofs.«429891_j34660386078849_1_alg».proof.Proof.TakeOps
import proofs.«429891_j34660386078849_1_alg».proof.Proof.MatmulBlocks3
import proofs.«429891_j34660386078849_1_alg».proof.Proof.BiasStats4
import proofs.«429891_j34660386078849_1_alg».proof.Proof.NormRelu5
import proofs.«429891_j34660386078849_1_alg».proof.Proof.Rows
import Idealize.ShloMosaic.Lib.StableHlo.Run

noncomputable section

namespace Cert.KernelIdeal.Chain

open Cert.KernelIdeal Cert.KernelIdeal.Gen Cert.KernelIdeal.Edges Cert.KernelIdeal.Blocks Cert.KernelIdeal.Kept Cert.Gcn
open Idealize.ShloMosaic Idealize.ShloMosaic.ValueIdx Idealize.ShloMosaic.StableHlo Idealize.ShloMosaic.TcCoe Idealize.SL.Sem

section Stretches

variable (V : Valuation τ sig (Elt Ideal))

/-- The number of nodes along a row of 128 columns. -/
abbrev nodesRow2 : FVec Ideal S1x128 .f32 := broadcastInDim S1x128 ![] bcast_S_S1x128 (constant (F := Ideal) S_ .f32 0x47C35000#32)

/-- The aggregation stretch scatters, by the targets' column, the taken rows times the edge weights into zeros. -/
theorem aggregate2_of :
    @Eq (FVec Ideal S100000x128 .f32) (StableHlo.after hostOps4_1 V (Proc.devRef .tc main_v54))
      (Host.scatterAdd scatter_S100000x128_S1700000x1_S1700000x128_1_0_0_1
        (broadcastInDim S100000x128 ![] bcast_S_S100000x128 (constant (F := Ideal) S_ .f32 0x00000000#32))
        (asColumn (V (Proc.devRef .tc main_v6)))
        (mulf (V (Proc.devRef .tc main_v49))
          (broadcastInDim S1700000x128 ![0, 1] bcast_S1700000x1_S1700000x128_0_1 (V (Proc.devRef .tc main_v29))))) := by
  after_results
  unfold asColumn
  rfl

theorem biasRow2_of :
    @Eq (FVec Ideal S1x128 .f32) (StableHlo.after hostOps4_1 V (Proc.devRef .tc main_v55))
      (shapeCast S1x128 (V (Proc.devRef .tc main_arg7)) shapeCasts_S128_S1x128) := by
  after_results
  rfl

/-- The mean row is the row of column sums divided by the number of nodes. -/
theorem meanRow2_of :
    @Eq (FVec Ideal S1x128 .f32) (StableHlo.after hostOps5 V (Proc.devRef .tc main_v58))
      (Host.divf (V (Proc.devRef .tc main_v56_1)) nodesRow2) := by
  after_results

/-- The variance row is the mean of the squares minus the square of the mean. -/
theorem varRow2_of :
    @Eq (FVec Ideal S1x128 .f32) (StableHlo.after hostOps5 V (Proc.devRef .tc main_v62))
      (subf (Host.divf (V (Proc.devRef .tc main_v56_2)) nodesRow2)
        (mulf (Host.divf (V (Proc.devRef .tc main_v56_1)) nodesRow2) (Host.divf (V (Proc.devRef .tc main_v56_1)) nodesRow2))) := by
  after_results

theorem scaleRow2_of :
    @Eq (FVec Ideal S1x128 .f32) (StableHlo.after hostOps5 V (Proc.devRef .tc main_v63))
      (shapeCast S1x128 (V (Proc.devRef .tc main_arg8)) shapeCasts_S128_S1x128) := by
  after_results
  rfl

theorem shiftRow2_of :
    @Eq (FVec Ideal S1x128 .f32) (StableHlo.after hostOps5 V (Proc.devRef .tc main_v64))
      (shapeCast S1x128 (V (Proc.devRef .tc main_arg9)) shapeCasts_S128_S1x128) := by
  after_results
  rfl

end Stretches

variable (m : (ℓ : Loc nD τ sig) → Buf (Elt Ideal) ℓ) (ρ : Dev nD → PrngReg)

/-- The layer's input times its weights; that product aggregated over the edges; and the aggregate plus the bias row. -/
abbrev prod2 (c : Dev nD) : Mat 100000 128 := mm (W7 m ρ c (Proc.devRef .tc main_v47)) (m ((c.tc : Thread nD τ).loc main_arg6))
abbrev agg2 (c : Dev nD) : Mat 100000 128 :=
  aggregateTaken128 (F := Ideal) (W1 m ρ c (Proc.devRef .tc main_v3)) (W1 m ρ c (Proc.devRef .tc main_v6)) (W1 m ρ c (Proc.devRef .tc main_v29)) (prod2 m ρ c)
abbrev pre2 (c : Dev nD) : Mat 100000 128 := addRow (agg2 m ρ c) (fun q : Fin 128 => m ((c.tc : Thread nD τ).loc main_arg7) (ix1 q))

theorem product2 (c : Dev nD) : W8 (F := Ideal) m ρ c (Proc.devRef .tc main_v48) = prod2 m ρ c := by
  show W8 m ρ c (Proc.devRef .tc (Pipeline.arrRef spec3 2)) = _
  refine (W8_arr m ρ c 2).trans ((matmul3 (V7 m ρ) c).trans ?_)
  rw [show V7 m ρ c main_arg6 = m ((c.tc : Thread nD τ).loc main_arg6) from main_arg6_0_7 m ρ c]

abbrev TakeStretch2 (c : Dev nD) : Prop :=
  @Eq (FVec Ideal S1700000x128 .f32) (W9 m ρ c (Proc.devRef .tc main_v49))
    (takeRows128 (F := Ideal) (W8 m ρ c (Proc.devRef .tc main_v3)) (W8 m ρ c (Proc.devRef .tc main_v48)))

/-- What the bias-and-sums region is entered with: the aggregate of the taken rows of the product, and the bias row. -/
theorem entry2 (c : Dev nD) (htake : TakeStretch2 m ρ c) :
    addRow (V10 (F := Ideal) m ρ c main_v54) (fun q : Fin 128 => V10 (F := Ideal) m ρ c main_v55 (ix2 (0 : Fin 1) q)) = pre2 m ρ c := by
  have ht : W9 (F := Ideal) m ρ c (Proc.devRef .tc main_v49) = takeRows128 (F := Ideal) (W1 m ρ c (Proc.devRef .tc main_v3)) (prod2 m ρ c) := by
    refine (htake : _ = _).trans ?_
    rw [main_v3_1_8 m ρ c, product2 m ρ c]
  have ha : V10 (F := Ideal) m ρ c main_v54 = agg2 m ρ c := by
    refine (aggregate2_of (W9 m ρ c)).trans ?_
    rw [ht, main_v6_1_9 m ρ c, main_v29_1_9 m ρ c]
    rfl
  rw [ha, show (fun q : Fin 128 => V10 (F := Ideal) m ρ c main_v55 (ix2 (0 : Fin 1) q)) = _ from
    row_cast (biasRow2_of (W9 m ρ c)) (main_arg7_0_9 m ρ c)]

theorem layer2 (c : Dev nD) (htake : TakeStretch2 m ρ c) :
    W13 (F := Ideal) m ρ c (Proc.devRef .tc main_v65)
      = normOfSquares
          (addRow (aggregateTaken128 (F := Ideal) (W1 m ρ c (Proc.devRef .tc main_v3)) (W1 m ρ c (Proc.devRef .tc main_v6)) (W1 m ρ c (Proc.devRef .tc main_v29))
                    (mm (W7 m ρ c (Proc.devRef .tc main_v47)) (m ((c.tc : Thread nD τ).loc main_arg6))))
                  (fun q : Fin 128 => m ((c.tc : Thread nD τ).loc main_arg7) (ix1 q)))
          (fun q : Fin 128 => m ((c.tc : Thread nD τ).loc main_arg8) (ix1 q))
          (fun q : Fin 128 => m ((c.tc : Thread nD τ).loc main_arg9) (ix1 q)) := by
  have he := entry2 m ρ c htake
  show W13 m ρ c (Proc.devRef .tc (Pipeline.arrRef spec5 5)) = _
  refine (W13_arr m ρ c 5).trans ((normClamp5 (V12 m ρ) c).trans ?_)
  exact normOfSquares_of
    ((main_v56_0_11_12 m ρ c).trans (((W11_arr m ρ c 2).trans (biased4 (V10 m ρ) c)).trans he))
    (((W11_arr m ρ c 3).trans (colSums4 (V10 m ρ) c)).trans (by rw [he]; rfl))
    (((W11_arr m ρ c 4).trans (colSumSqs4 (V10 m ρ) c)).trans (by rw [he]; rfl))
    (fun _ => rfl) (meanRow2_of (W11 m ρ c)) (varRow2_of (W11 m ρ c))
    (row_cast (scaleRow2_of (W11 m ρ c)) (main_arg8_0_11 m ρ c)) (row_cast (shiftRow2_of (W11 m ρ c)) (main_arg9_0_11 m ρ c))

end Cert.KernelIdeal.Chain

end
-- ==== Proof.MatmulBlocks6.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body multiplies its row block by the weights. -/
theorem pay6 (x : Vec Ideal S5000x128 .bf16) (w : Vec Ideal S128x64 .f32) : k6_pay1 (F := Ideal) x w = mm x w := by
  unfold k6_pay1
  simp only [shapeCast_self]
  exact matmul_plain _ _

/-- The block indices at point `t`: `(t, 0)` for the row-blocked arrays, `(0, 0)` for the others. -/
theorem blockIndex6 : ∀ t : Fin cfg6.N,
    win6_0.index t = ![t.val, 0] ∧ win6_1.index t = ![0, 0] ∧ win6_2.index t = ![t.val, 0] :=
  (by decide +kernel : ∀ t : Fin grid6.N, _)

variable (V : (c : Dev nD) → (b : Ref sig .tc) → Buf (Elt Ideal) ((c : Thread nD τ).loc b))

/-- What point `t` writes back is row block `t` of the matrix product. -/
theorem flushed6 (c : Dev nD) (t : Fin cfg6.N) :
    (dat6 (F := Ideal) V c).flushed 2 t = ((cfg6.win 2).blk t).view.read (Elt Ideal) (mm (V c main_v65) (V c main_arg10)) := by
  show (cfg6.win 2).cut (grid6.coords t) ((dat6 (F := Ideal) V c).after 2 t) = _
  rw [after6_2, out6_2, View.canon_unit_zero origin2]
  simp only [View.ld_unit_zero (S := S5000x128) origin2, View.ld_unit_zero (S := S128x64) origin2]
  obtain ⟨e0, e1, e2⟩ := blockIndex6 t
  funext y
  refine (congrFun (pay6 _ _) y).trans ?_
  have s2 : RowShift (t.val * 5000) ((cfg6.win 2).blk t).view.emb := .of e2
  have s0 : RowShift (t.val * 5000) ((cfg6.win 0).blk t).view.emb := .of e0
  have s1 : RowShift 0 ((cfg6.win 1).blk t).view.emb := .of e1
  exact mm_rowShift s2 s0 s1 (V c main_v65) (V c main_arg10) y

/-- Row `r` of the result is in the block of point `r / 5000`. -/
theorem cover6 (i : S100000x64.Idx) :
    ∃ t : Fin cfg6.N, (cfg6.win 2).flush t = true ∧ i ∈ ((cfg6.win 2).blk t).view.set := by
  let t : Fin cfg6.N := ⟨(i 0).val / 5000, Nat.div_lt_of_lt_mul (i 0).isLt⟩
  obtain ⟨-, -, h⟩ := blockIndex6 t
  refine ⟨t, flush6_2 t, ?_⟩
  show i ∈ ((View.whole main_v66).slice (win6_2.rect t)).set
  rw [View.set_slice_whole, Rect.mem_set_unit]
  exact mem_rowBlock i h (by decide)

theorem matmul6 (c : Dev nD) :
    (dat6 (F := Ideal) V c).arrAt 2 cfg6.N = mm (V c main_v65) (V c main_arg10) :=
  (dat6 (F := Ideal) V c).arrAt_eq_of_cover 2 _ (fun t _ => flushed6 V c t) cover6

end Cert.KernelIdeal.Blocks

end
-- ==== Proof.BiasStats7.lean ====
import proofs.«429891_j34660386078849_1_alg».proof.Proof.Gen.KernelIdeal.Frame
import proofs.«429891_j34660386078849_1_alg».proof.Proof.BiasStats

noncomputable section

namespace Cert.KernelIdeal.Blocks

open Cert.KernelIdeal Cert.KernelIdeal.Gen Cert.Gcn Idealize.ShloMosaic Idealize.ShloMosaic.ValueIdx Idealize.ShloMosaic.TcCoe Idealize.SL.Sem BiasStats
open Idealize.ShloMosaic.Pipeline (Dat Cfg Window)
open scoped BigOperators

namespace BiasStats7

variable (V : (c : Dev nD) → (b : Ref sig .tc) → Buf (Elt Ideal) ((c : Thread nD τ).loc b)) (c : Dev nD)

abbrev xblk (t : Fin cfg7.N) : Vec Ideal S5000x64 .f32 := iblk7 V c 0 t
abbrev bblk (t : Fin cfg7.N) : Vec Ideal S1x64 .f32 := iblk7 V c 1 t
abbrev prev (t : Fin cfg7.N) := outsAt7 V c (t.val - 1) (Nat.lt_of_le_of_lt (Nat.sub_le _ _) t.isLt)
abbrev biased : Mat 100000 64 := addRow (V c main_v72) fun q => V c main_v73 (ix2 (0 : Fin 1) q)

/-- Point 0: the biased block, and its column sums and sums of squares added to zero rows. -/
theorem outs_A (t : Fin cfg7.N) (h0 : t.val % 20 = 0) :
    outsAt7 V c t.val t.isLt = (k7_pay3 (xblk V c t) (bblk V c t), k7_pay4 (xblk V c t) (bblk V c t) (k7_pay1 (F := Ideal)), k7_pay5 (xblk V c t) (bblk V c t) (k7_pay2 (F := Ideal))) := by
  rw [outsAt7_A V c t h0]
  unfold out7_A_2 out7_A_3 out7_A_4
  rw [View.read_writes_eq_canon _ _ _ fun _ => cover7_A_2 .., View.read_writes_eq_canon _ _ _ fun _ => cover7_A_3 .., View.read_writes_eq_canon _ _ _ fun _ => cover7_A_4 ..]
  unfold kernelRun7_A
  dsimp only
  sl_unfold_words
  rw [View.canon_unit_zero hz, View.canon_cons_unit_zero (S := S1x64) hz, View.canon_cons_unit_zero (S := S1x64) hz, View.readCov_unit_zero (S := S1x64) _ hz, View.readCov_unit_zero (S := S1x64) _ hz]
  simp only [View.readAt_eq_ld, (hs7_0 t).read_unread, (hs7_1 t).read_unread, View.ld_unit_zero (S := S5000x64) hz, View.ld_unit_zero (S := S1x64) hz]

/-- Any later point: the same block function, the two sums added to the rows the point before left. -/
theorem outs_B (t : Fin cfg7.N) (h0 : ¬t.val % 20 = 0) :
    outsAt7 V c t.val t.isLt = (k7_pay3 (xblk V c t) (bblk V c t), k7_pay4 (xblk V c t) (bblk V c t) (prev V c t).2.1, k7_pay5 (xblk V c t) (bblk V c t) (prev V c t).2.2) := by
  rw [outsAt7_B V c t h0]
  unfold out7_B_2 out7_B_3 out7_B_4
  rw [View.read_writes_eq_canon _ _ _ fun _ => cover7_B_2 .., View.read_writes_eq_canon _ _ _ fun _ => cover7_B_3 .., View.read_writes_eq_canon _ _ _ fun _ => cover7_B_4 ..]
  unfold kernelRun7_B
  dsimp only
  sl_unfold_words
  rw [View.canon_unit_zero hz, View.canon_unit_zero hz, View.canon_unit_zero hz]
  simp only [View.readAt_eq_ld, (hs7_0 t).read_unread, (hs7_1 t).read_unread, (hs7_3 t).read_unread, (hs7_4 t).read_unread, View.ld_unit_zero (S := S5000x64) hz, View.ld_unit_zero (S := S1x64) hz]

theorem rows_lt (t : Fin cfg7.N) (p : Fin 5000) : 5000 * t.val + p.val < 100000 := by
  have := lt_of_lt_of_eq t.isLt N_7
  have := p.isLt
  omega

theorem idx_facts : ∀ t : Fin cfg7.N, win7_0.index t (0 : Fin 2) = t.val ∧ win7_0.index t (1 : Fin 2) = 0
    ∧ win7_1.index t (1 : Fin 2) = 0 ∧ win7_2.index t (0 : Fin 2) = t.val ∧ win7_2.index t (1 : Fin 2) = 0
    ∧ win7_3.index t (1 : Fin 2) = 0 ∧ win7_4.index t (1 : Fin 2) = 0 :=
  (by decide +kernel : ∀ t : Fin grid7.N, _)

/-- Block coordinates to array coordinates, for all five arrays: rows advance by 5000 a point, columns never. -/
theorem embs (t : Fin cfg7.N) (p : Fin 5000) (q : Fin 64) :
    ((cfg7.win 0).blk t).view.emb (ix2 p q) = ix2 ⟨5000 * t.val + p.val, rows_lt t p⟩ q
    ∧ ((cfg7.win 2).blk t).view.emb (ix2 p q) = ix2 ⟨5000 * t.val + p.val, rows_lt t p⟩ q
    ∧ ((cfg7.win 1).blk t).view.emb (ix2 (0 : Fin 1) q) = ix2 (0 : Fin 1) q
    ∧ ((cfg7.win 3).blk t).view.emb (ix2 (0 : Fin 1) q) = ix2 (0 : Fin 1) q
    ∧ ((cfg7.win 4).blk t).view.emb (ix2 (0 : Fin 1) q) = ix2 (0 : Fin 1) q := by
  obtain ⟨e0, e1, e2, e3, e4, e5, e6⟩ := idx_facts t
  exact ⟨rows_idx e0 e1 rfl rfl _, rows_idx e3 e4 rfl rfl _, row_idx e2 rfl, row_idx e5 rfl, row_idx e6 rfl⟩

/-- So the biased block at point `t` is rows `5000 t …` of the biased array. -/
theorem entry (t : Fin cfg7.N) (p : Fin 5000) (q : Fin 64) :
    k7_pay3 (F := Ideal) (xblk V c t) (bblk V c t) (ix2 p q) = rowN (biased V c) q (5000 * t.val + p.val) := by
  obtain ⟨e0, -, e1, -⟩ := embs t p q
  rw [rowN_lt _ _ (rows_lt t p)]
  exact (bias_apply _ _ _ _ _ p q).trans (congrArg₂ (· + ·) (show xblk V c t (ix2 p q) = _ from congrArg (V c main_v72) e0)
    (show bblk V c t (ix2 (0 : Fin 1) q) = _ from congrArg (V c main_v73) e1))

/-- The column sums so far: `stat_run` with the identity as summand. -/
theorem sums_inv (q : Fin 64) : ∀ k (h : k < cfg7.N),
    (outsAt7 V c k h).2.1 (ix2 (0 : Fin 1) q) = ∑ r ∈ Finset.range (5000 * (k + 1)), id (rowN (biased V c) q r) :=
  stat_run (biased V c) id q (fun k h => (outsAt7 V c k h).2.1) k7_pay1 Ideal.ofBits_zero_f32
    (fun k h => k7_pay3 (xblk V c ⟨k, h⟩) (bblk V c ⟨k, h⟩)) (fun k h p => entry V c ⟨k, h⟩ p q) _ _ _ _ _
    (fun h => congrArg (·.2.1) (outs_A V c ⟨0, h⟩ rfl)) fun k h => congrArg (·.2.1) (outs_B V c ⟨k + 1, h⟩ (succ_mod_ne (lt_of_lt_of_eq h N_7)))

/-- The column sums of squares so far: `stat_run` with the square as summand. -/
theorem sumSqs_inv (q : Fin 64) : ∀ k (h : k < cfg7.N),
    (outsAt7 V c k h).2.2 (ix2 (0 : Fin 1) q) = ∑ r ∈ Finset.range (5000 * (k + 1)), (fun z => z * z) (rowN (biased V c) q r) :=
  stat_run (biased V c) (fun z => z * z) q (fun k h => (outsAt7 V c k h).2.2) k7_pay2 Ideal.ofBits_zero_f32
    (fun k h => mulf (k7_pay3 (xblk V c ⟨k, h⟩) (bblk V c ⟨k, h⟩)) (k7_pay3 (xblk V c ⟨k, h⟩) (bblk V c ⟨k, h⟩)))
    (fun k h p => congrArg₂ (· * ·) (entry V c ⟨k, h⟩ p q) (entry V c ⟨k, h⟩ p q)) _ _ _ _ _
    (fun h => congrArg (·.2.2) (outs_A V c ⟨0, h⟩ rfl)) fun k h => congrArg (·.2.2) (outs_B V c ⟨k + 1, h⟩ (succ_mod_ne (lt_of_lt_of_eq h N_7)))

/-- Output 2 block by block: both cases store the same biased block. -/
theorem biased_flushed (t : Fin cfg7.N) :
    (dat7 (F := Ideal) V c).flushed 2 t = ((cfg7.win 2).blk t).view.read (Elt Ideal) (biased V c) := by
  show (cfg7.win 2).cut (grid7.coords t) ((dat7 (F := Ideal) V c).after 2 t) = _
  rw [after7_2]
  funext y
  obtain ⟨p, q, rfl⟩ : ∃ (p : Fin 5000) (q : Fin 64), y = ix2 p q := ⟨y 0, y 1, eq_ix2 y⟩
  show (outsAt7 V c t.val t.isLt).1 (ix2 p q) = biased V c (((cfg7.win 2).blk t).view.emb (ix2 p q))
  rw [(embs t p q).2.1, ← rowN_lt (biased V c) q (rows_lt t p), ← entry V c t p q]
  by_cases h0 : t.val % 20 = 0
  · rw [outs_A V c t h0]
  · rw [outs_B V c t h0]

theorem last (t : Fin cfg7.N) (h : t.val % 20 = 19) : 5000 * (t.val + 1) = 100000 := by
  have := lt_of_lt_of_eq t.isLt N_7
  omega

/-- A one-row output is determined by its entries `(0, q)`. -/
theorem row_flushed3 (t : Fin cfg7.N) (X : Vec Ideal S1x64 .f32) (G : Mat 1 64) (h : ∀ q : Fin 64, X (ix2 (0 : Fin 1) q) = G (ix2 (0 : Fin 1) q)) :
    (cfg7.win 3).cut (grid7.coords t) X = ((cfg7.win 3).blk t).view.read (Elt Ideal) G :=
  row_funext fun q => (h q).trans (congrArg G (embs t 0 q).2.2.2.1).symm

theorem row_flushed4 (t : Fin cfg7.N) (X : Vec Ideal S1x64 .f32) (G : Mat 1 64) (h : ∀ q : Fin 64, X (ix2 (0 : Fin 1) q) = G (ix2 (0 : Fin 1) q)) :
    (cfg7.win 4).cut (grid7.coords t) X = ((cfg7.win 4).blk t).view.read (Elt Ideal) G :=
  row_funext fun q => (h q).trans (congrArg G (embs t 0 q).2.2.2.2).symm

/-- Output 3 is stored when the running sums have taken in all 100000 rows. -/
theorem colSums_flushed (t : Fin cfg7.N) (hf : (cfg7.win 3).flush t = true) :
    (dat7 (F := Ideal) V c).flushed 3 t = ((cfg7.win 3).blk t).view.read (Elt Ideal) fun j => colSum (biased V c) (j 1) := by
  show (cfg7.win 3).cut (grid7.coords t) ((dat7 (F := Ideal) V c).after 3 t) = _
  rw [after7_3]
  refine row_flushed3 t _ _ fun q => ?_
  rw [sums_inv V c q t.val t.isLt, last t ((flush7_3 t).mp hf)]
  exact (sum_rows _ id q).symm

/-- Output 4 likewise. -/
theorem colSumSqs_flushed (t : Fin cfg7.N) (hf : (cfg7.win 4).flush t = true) :
    (dat7 (F := Ideal) V c).flushed 4 t = ((cfg7.win 4).blk t).view.read (Elt Ideal) fun j => colSumSq (biased V c) (j 1) := by
  show (cfg7.win 4).cut (grid7.coords t) ((dat7 (F := Ideal) V c).after 4 t) = _
  rw [after7_4]
  refine row_flushed4 t _ _ fun q => ?_
  rw [sumSqs_inv V c q t.val t.isLt, last t ((flush7_4 t).mp hf)]
  exact (sum_rows _ (fun z => z * z) q).symm

/-- Row `r` is row `r % 5000` of block `r / 5000`. -/
theorem cover2 (i : S100000x64.Idx) : ∃ t : Fin cfg7.N, (cfg7.win 2).flush t = true ∧ i ∈ ((cfg7.win 2).blk t).view.set := by
  have h0 : (i 0).val < 100000 := idx2_lt0 i
  have ht : (i 0).val / 5000 < cfg7.N := lt_of_lt_of_eq (by omega) N_7.symm
  exact ⟨⟨(i 0).val / 5000, ht⟩, flush7_2 _, mem_of_emb ((embs ⟨_, ht⟩ ⟨(i 0).val % 5000, Nat.mod_lt _ (by decide)⟩ (i 1)).2.1.trans
    (Shape.idx_ext₂ (Nat.div_add_mod _ 5000) rfl))⟩

abbrev tLast : Fin cfg7.N := ⟨19, lt_of_lt_of_eq (by decide) N_7.symm⟩

/-- A one-row output has a single block; point 19 stores it. -/
theorem cover3 (i : S1x64.Idx) : ∃ t : Fin cfg7.N, (cfg7.win 3).flush t = true ∧ i ∈ ((cfg7.win 3).blk t).view.set :=
  ⟨tLast, (flush7_3 tLast).mpr rfl, mem_of_emb ((embs tLast 0 (i 1)).2.2.2.1.trans (row_eq i))⟩

theorem cover4 (i : S1x64.Idx) : ∃ t : Fin cfg7.N, (cfg7.win 4).flush t = true ∧ i ∈ ((cfg7.win 4).blk t).view.set :=
  ⟨tLast, (flush7_4 tLast).mpr rfl, mem_of_emb ((embs tLast 0 (i 1)).2.2.2.2.trans (row_eq i))⟩

end BiasStats7

section Outputs
open BiasStats7
variable (V : (c : Dev nD) → (b : Ref sig .tc) → Buf (Elt Ideal) ((c : Thread nD τ).loc b))

theorem biased7 (c : Dev nD) :
    (dat7 (F := Ideal) V c).arrAt 2 cfg7.N = addRow (V c main_v72) (fun q : Fin 64 => V c main_v73 (ix2 (0 : Fin 1) q)) :=
  (dat7 (F := Ideal) V c).arrAt_eq_of_cover 2 (biased V c) (fun t _ => biased_flushed V c t) cover2

theorem colSums7 (c : Dev nD) :
    (dat7 (F := Ideal) V c).arrAt 3 cfg7.N = fun j => colSum (addRow (V c main_v72) (fun q : Fin 64 => V c main_v73 (ix2 (0 : Fin 1) q))) (j 1) :=
  (dat7 (F := Ideal) V c).arrAt_eq_of_cover 3 _ (colSums_flushed V c) cover3

theorem colSumSqs7 (c : Dev nD) :
    (dat7 (F := Ideal) V c).arrAt 4 cfg7.N = fun j => colSumSq (addRow (V c main_v72) (fun q : Fin 64 => V c main_v73 (ix2 (0 : Fin 1) q))) (j 1) :=
  (dat7 (F := Ideal) V c).arrAt_eq_of_cover 4 _ (colSumSqs_flushed V c) cover4

end Outputs
end Cert.KernelIdeal.Blocks
end
-- ==== Proof.NormRelu8.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body normalises its data block by the four rows, scales, shifts and clamps at zero. -/
theorem pay8 (x0 : Vec Ideal S5000x64 .f32) (x1 x2 x3 x4 : Vec Ideal S1x64 .f32) :
    k8_pay1 (F := Ideal) x0 x1 x2 x3 x4 = normClamp x0 (row x1) (row x2) (row x3) (row x4) := by
  funext j
  obtain ⟨p, q, rfl⟩ : ∃ (p : Fin 5000) (q : Fin 64), j = ix2 p q := ⟨j 0, j 1, eq_ix2 j⟩
  unfold k8_pay1
  simp only [shapeCast_self]
  rw [truncf_apply, maximumf_apply, addf_apply, mulf_apply, mulf_apply, subf_apply,
    broadcastTo_1b_ab_apply, broadcastTo_1b_ab_apply, broadcastTo_1b_ab_apply, broadcastTo_1b_ab_apply]
  show max (_ * Ideal.rsqrt (_ + Ideal.ofBits .f32 0x3727C5AC#32) * _ + _) (Ideal.ofBits .f32 0x00000000#32) = _
  rw [Ideal.ofBits_zero_f32]
  rfl

/-- The block indices at point `t`: `(t, 0)` for the row-blocked arrays, `(0, 0)` for the others. -/
theorem blockIndex8 : ∀ t : Fin cfg8.N,
    win8_0.index t = ![t.val, 0] ∧ win8_1.index t = ![0, 0] ∧ win8_2.index t = ![0, 0]
    ∧ win8_3.index t = ![0, 0] ∧ win8_4.index t = ![0, 0] ∧ win8_5.index t = ![t.val, 0] :=
  (by decide +kernel : ∀ t : Fin grid8.N, _)

variable (V : (c : Dev nD) → (b : Ref sig .tc) → Buf (Elt Ideal) ((c : Thread nD τ).loc b)) (c : Dev nD)

/-- What point `t` writes back is row block `t` of the normalised array. -/
theorem flushed8 (t : Fin cfg8.N) :
    (dat8 (F := Ideal) V c).flushed 5 t = ((cfg8.win 5).blk t).view.read (Elt Ideal)
      (normClamp (V c main_v74_0) (row (V c main_v76)) (row (V c main_v80)) (row (V c main_v81)) (row (V c main_v82))) := by
  show (cfg8.win 5).cut (grid8.coords t) ((dat8 (F := Ideal) V c).after 5 t) = _
  rw [after8_5, out8_5, View.canon_unit_zero origin2]
  simp only [View.ld_unit_zero (S := S5000x64) origin2, View.ld_unit_zero (S := S1x64) origin2]
  obtain ⟨e0, e1, e2, e3, e4, e5⟩ := blockIndex8 t
  funext y
  refine (congrFun (pay8 _ _ _ _ _) y).trans ?_
  have s5 : RowShift (t.val * 5000) ((cfg8.win 5).blk t).view.emb := .of e5
  have s0 : RowShift (t.val * 5000) ((cfg8.win 0).blk t).view.emb := .of e0
  have s1 : RowShift 0 ((cfg8.win 1).blk t).view.emb := .of e1
  have s2 : RowShift 0 ((cfg8.win 2).blk t).view.emb := .of e2
  have s3 : RowShift 0 ((cfg8.win 3).blk t).view.emb := .of e3
  have s4 : RowShift 0 ((cfg8.win 4).blk t).view.emb := .of e4
  exact normClamp_rowShift s5 s1 s2 s3 s4 s0 (V c main_v74_0) (V c main_v76) (V c main_v80) (V c main_v81) (V c main_v82) y

/-- Row `r` of the result is in the block of point `r / 5000`. -/
theorem cover8 (i : S100000x64.Idx) :
    ∃ t : Fin cfg8.N, (cfg8.win 5).flush t = true ∧ i ∈ ((cfg8.win 5).blk t).view.set := by
  let t : Fin cfg8.N := ⟨(i 0).val / 5000, Nat.div_lt_of_lt_mul (i 0).isLt⟩
  obtain ⟨-, -, -, -, -, h⟩ := blockIndex8 t
  refine ⟨t, flush8_5 t, ?_⟩
  show i ∈ ((View.whole main_v83).slice (win8_5.rect t)).set
  rw [View.set_slice_whole, Rect.mem_set_unit]
  exact mem_rowBlock i h (by decide)

theorem normClamp8 :
    (dat8 (F := Ideal) V c).arrAt 5 cfg8.N = normClamp (V c main_v74_0)
      (fun q : Fin 64 => V c main_v76 (ix2 (0 : Fin 1) q)) (fun q : Fin 64 => V c main_v80 (ix2 (0 : Fin 1) q))
      (fun q : Fin 64 => V c main_v81 (ix2 (0 : Fin 1) q)) (fun q : Fin 64 => V c main_v82 (ix2 (0 : Fin 1) q)) :=
  (dat8 (F := Ideal) V c).arrAt_eq_of_cover 5 _ (fun t _ => flushed8 V c t) cover8

end Cert.KernelIdeal.Blocks

end
-- ==== Proof.KernelLayer3.lean ====
import proofs.«429891_j34660386078849_1_alg».proof.Proof.Gen.KernelIdeal.Frame
import proofs.«429891_j34660386078849_1_alg».proof.Proof.Kept
import proofs.«429891_j34660386078849_1_alg».proof.Proof.EdgeOps
import proofs.«429891_j34660386078849_1_alg».proof.Proof.TakeOps
import proofs.«429891_j34660386078849_1_alg».proof.Proof.MatmulBlocks6
import proofs.«429891_j34660386078849_1_alg».proof.Proof.BiasStats7
import proofs.«429891_j34660386078849_1_alg».proof.Proof.NormRelu8
import proofs.«429891_j34660386078849_1_alg».proof.Proof.Rows
import Idealize.ShloMosaic.Lib.StableHlo.Run

noncomputable section

namespace Cert.KernelIdeal.Chain

open Cert.KernelIdeal Cert.KernelIdeal.Gen Cert.KernelIdeal.Edges Cert.KernelIdeal.Blocks Cert.KernelIdeal.Kept Cert.Gcn
open Idealize.ShloMosaic Idealize.ShloMosaic.ValueIdx Idealize.ShloMosaic.StableHlo Idealize.ShloMosaic.TcCoe Idealize.SL.Sem

section Stretches

variable (V : Valuation τ sig (Elt Ideal))

/-- The number of nodes along a row of 64 columns. -/
abbrev nodesRow3 : FVec Ideal S1x64 .f32 := broadcastInDim S1x64 ![] bcast_S_S1x64 (constant (F := Ideal) S_ .f32 0x47C35000#32)

/-- The aggregation stretch scatters, by the targets' column, the taken rows times the edge weights into zeros. -/
theorem aggregate3_of :
    @Eq (FVec Ideal S100000x64 .f32) (StableHlo.after hostOps7_1 V (Proc.devRef .tc main_v72))
      (Host.scatterAdd scatter_S100000x64_S1700000x1_S1700000x64_1_0_0_1
        (broadcastInDim S100000x64 ![] bcast_S_S100000x64 (constant (F := Ideal) S_ .f32 0x00000000#32))
        (asColumn (V (Proc.devRef .tc main_v6)))
        (mulf (V (Proc.devRef .tc main_v67))
          (broadcastInDim S1700000x64 ![0, 1] bcast_S1700000x1_S1700000x64_0_1 (V (Proc.devRef .tc main_v29))))) := by
  after_results
  unfold asColumn
  rfl

theorem biasRow3_of :
    @Eq (FVec Ideal S1x64 .f32) (StableHlo.after hostOps7_1 V (Proc.devRef .tc main_v73))
      (shapeCast S1x64 (V (Proc.devRef .tc main_arg11)) shapeCasts_S64_S1x64) := by
  after_results
  rfl

/-- The mean row is the row of column sums divided by the number of nodes. -/
theorem meanRow3_of :
    @Eq (FVec Ideal S1x64 .f32) (StableHlo.after hostOps8 V (Proc.devRef .tc main_v76))
      (Host.divf (V (Proc.devRef .tc main_v74_1)) nodesRow3) := by
  after_results

/-- The variance row is the mean of the squares minus the square of the mean. -/
theorem varRow3_of :
    @Eq (FVec Ideal S1x64 .f32) (StableHlo.after hostOps8 V (Proc.devRef .tc main_v80))
      (subf (Host.divf (V (Proc.devRef .tc main_v74_2)) nodesRow3)
        (mulf (Host.divf (V (Proc.devRef .tc main_v74_1)) nodesRow3) (Host.divf (V (Proc.devRef .tc main_v74_1)) nodesRow3))) := by
  after_results

theorem scaleRow3_of :
    @Eq (FVec Ideal S1x64 .f32) (StableHlo.after hostOps8 V (Proc.devRef .tc main_v81))
      (shapeCast S1x64 (V (Proc.devRef .tc main_arg12)) shapeCasts_S64_S1x64) := by
  after_results
  rfl

theorem shiftRow3_of :
    @Eq (FVec Ideal S1x64 .f32) (StableHlo.after hostOps8 V (Proc.devRef .tc main_v82))
      (shapeCast S1x64 (V (Proc.devRef .tc main_arg13)) shapeCasts_S64_S1x64) := by
  after_results
  rfl

end Stretches

variable (m : (ℓ : Loc nD τ sig) → Buf (Elt Ideal) ℓ) (ρ : Dev nD → PrngReg)

/-- The layer's input times its weights; that product aggregated over the edges; and the aggregate plus the bias row. -/
abbrev prod3 (c : Dev nD) : Mat 100000 64 := mm (W13 m ρ c (Proc.devRef .tc main_v65)) (m ((c.tc : Thread nD τ).loc main_arg10))
abbrev agg3 (c : Dev nD) : Mat 100000 64 :=
  aggregateTaken64 (F := Ideal) (W1 m ρ c (Proc.devRef .tc main_v3)) (W1 m ρ c (Proc.devRef .tc main_v6)) (W1 m ρ c (Proc.devRef .tc main_v29)) (prod3 m ρ c)
abbrev pre3 (c : Dev nD) : Mat 100000 64 := addRow (agg3 m ρ c) (fun q : Fin 64 => m ((c.tc : Thread nD τ).loc main_arg11) (ix1 q))

theorem product3 (c : Dev nD) : W14 (F := Ideal) m ρ c (Proc.devRef .tc main_v66) = prod3 m ρ c := by
  show W14 m ρ c (Proc.devRef .tc (Pipeline.arrRef spec6 2)) = _
  refine (W14_arr m ρ c 2).trans ((matmul6 (V13 m ρ) c).trans ?_)
  rw [show V13 m ρ c main_arg10 = m ((c.tc : Thread nD τ).loc main_arg10) from main_arg10_0_13 m ρ c]

section Take

variable (htake : ∀ V : Valuation τ sig (Elt Ideal),
    @Eq (FVec Ideal S1700000x64 .f32) (StableHlo.after hostOps7 V (Proc.devRef .tc main_v67))
      (takeRows64 (F := Ideal) (V (Proc.devRef .tc main_v3)) (V (Proc.devRef .tc main_v66))))

include htake

/-- What the bias-and-sums region is entered with: the aggregate of the taken rows of the product, and the bias row. -/
theorem entry3 (c : Dev nD) :
    addRow (V16 (F := Ideal) m ρ c main_v72) (fun q : Fin 64 => V16 (F := Ideal) m ρ c main_v73 (ix2 (0 : Fin 1) q)) = pre3 m ρ c := by
  have ht : W15 (F := Ideal) m ρ c (Proc.devRef .tc main_v67) = takeRows64 (F := Ideal) (W1 m ρ c (Proc.devRef .tc main_v3)) (prod3 m ρ c) := by
    refine (htake (W14 m ρ c)).trans ?_
    rw [main_v3_1_14 m ρ c, product3 m ρ c]
  have ha : V16 (F := Ideal) m ρ c main_v72 = agg3 m ρ c := by
    refine (aggregate3_of (W15 m ρ c)).trans ?_
    rw [ht, main_v6_1_15 m ρ c, main_v29_1_15 m ρ c]
    rfl
  rw [ha, show (fun q : Fin 64 => V16 (F := Ideal) m ρ c main_v73 (ix2 (0 : Fin 1) q)) = _ from
    row_cast (biasRow3_of (W15 m ρ c)) (main_arg11_0_15 m ρ c)]

theorem layer3 (c : Dev nD) :
    W19 (F := Ideal) m ρ c (Proc.devRef .tc main_v83)
      = normOfSquares
          (addRow (aggregateTaken64 (F := Ideal) (W1 m ρ c (Proc.devRef .tc main_v3)) (W1 m ρ c (Proc.devRef .tc main_v6)) (W1 m ρ c (Proc.devRef .tc main_v29))
                    (mm (W13 m ρ c (Proc.devRef .tc main_v65)) (m ((c.tc : Thread nD τ).loc main_arg10))))
                  (fun q : Fin 64 => m ((c.tc : Thread nD τ).loc main_arg11) (ix1 q)))
          (fun q : Fin 64 => m ((c.tc : Thread nD τ).loc main_arg12) (ix1 q))
          (fun q : Fin 64 => m ((c.tc : Thread nD τ).loc main_arg13) (ix1 q)) := by
  have he := entry3 m ρ htake c
  show W19 m ρ c (Proc.devRef .tc (Pipeline.arrRef spec8 5)) = _
  refine (W19_arr m ρ c 5).trans ((normClamp8 (V18 m ρ) c).trans ?_)
  exact normOfSquares_of
    ((main_v74_0_17_18 m ρ c).trans (((W17_arr m ρ c 2).trans (biased7 (V16 m ρ) c)).trans he))
    (((W17_arr m ρ c 3).trans (colSums7 (V16 m ρ) c)).trans (by rw [he]; rfl))
    (((W17_arr m ρ c 4).trans (colSumSqs7 (V16 m ρ) c)).trans (by rw [he]; rfl))
    (fun _ => rfl) (meanRow3_of (W17 m ρ c)) (varRow3_of (W17 m ρ c))
    (row_cast (scaleRow3_of (W17 m ρ c)) (main_arg12_0_17 m ρ c)) (row_cast (shiftRow3_of (W17 m ρ c)) (main_arg13_0_17 m ρ c))

end Take

end Cert.KernelIdeal.Chain

end
-- ==== Proof.DenseBlocks9.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body multiplies its row block by the weights and adds the bias row, clamped at zero. -/
theorem pay9 (x : Vec Ideal S5000x64 .bf16) (w : Vec Ideal S64x32 .f32) (b : Vec Ideal S1x32 .f32) :
    k9_pay1 (F := Ideal) x w b = denseClamp x w (row b) := by
  funext j
  obtain ⟨p, q, rfl⟩ : ∃ (p : Fin 5000) (q : Fin 32), j = ix2 p q := ⟨j 0, j 1, eq_ix2 j⟩
  unfold k9_pay1
  rw [maximumf_apply, addf_apply, broadcast_apply, shapeCast_self, shapeCast_self, broadcastTo_1b_ab_apply]
  show max (matmul (DotDims.plain 5000 64 32) none _ _ _ (ix2 p q) + _) (Ideal.ofBits .f32 0x00000000#32) = _
  rw [Ideal.ofBits_zero_f32, matmul_plain]
  rfl

/-- The block indices at point `t`: `(t, 0)` for the row-blocked arrays, `(0, 0)` for the others. -/
theorem blockIndex9 : ∀ t : Fin cfg9.N,
    win9_0.index t = ![t.val, 0] ∧ win9_1.index t = ![0, 0] ∧ win9_2.index t = ![0, 0]
    ∧ win9_3.index t = ![t.val, 0] :=
  (by decide +kernel : ∀ t : Fin grid9.N, _)

variable (V : (c : Dev nD) → (b : Ref sig .tc) → Buf (Elt Ideal) ((c : Thread nD τ).loc b))

/-- What point `t` writes back is row block `t` of the clamped dense layer. -/
theorem flushed9 (c : Dev nD) (t : Fin cfg9.N) :
    (dat9 (F := Ideal) V c).flushed 3 t = ((cfg9.win 3).blk t).view.read (Elt Ideal)
      (denseClamp (V c main_v83) (V c main_arg14) (row (V c main_v84))) := by
  show (cfg9.win 3).cut (grid9.coords t) ((dat9 (F := Ideal) V c).after 3 t) = _
  rw [after9_3, out9_3, View.canon_unit_zero origin2]
  simp only [View.ld_unit_zero (S := S5000x64) origin2, View.ld_unit_zero (S := S64x32) origin2, View.ld_unit_zero (S := S1x32) origin2]
  obtain ⟨e0, e1, e2, e3⟩ := blockIndex9 t
  funext y
  refine (congrFun (pay9 _ _ _) y).trans ?_
  have s3 : RowShift (t.val * 5000) ((cfg9.win 3).blk t).view.emb := .of e3
  have s0 : RowShift (t.val * 5000) ((cfg9.win 0).blk t).view.emb := .of e0
  have s1 : RowShift 0 ((cfg9.win 1).blk t).view.emb := .of e1
  have s2 : RowShift 0 ((cfg9.win 2).blk t).view.emb := .of e2
  exact congrArg (max · 0) (dense_rowShift s3 s0 s1 s2 (V c main_v83) (V c main_arg14) (V c main_v84) y)

/-- Row `r` of the result is in the block of point `r / 5000`. -/
theorem cover9 (i : S100000x32.Idx) :
    ∃ t : Fin cfg9.N, (cfg9.win 3).flush t = true ∧ i ∈ ((cfg9.win 3).blk t).view.set := by
  let t : Fin cfg9.N := ⟨(i 0).val / 5000, Nat.div_lt_of_lt_mul (i 0).isLt⟩
  obtain ⟨-, -, -, h⟩ := blockIndex9 t
  refine ⟨t, flush9_3 t, ?_⟩
  show i ∈ ((View.whole main_v85).slice (win9_3.rect t)).set
  rw [View.set_slice_whole, Rect.mem_set_unit]
  exact mem_rowBlock i h (by decide)

theorem denseClamp9 (c : Dev nD) :
    (dat9 (F := Ideal) V c).arrAt 3 cfg9.N
      = denseClamp (V c main_v83) (V c main_arg14) (fun q : Fin 32 => V c main_v84 (ix2 (0 : Fin 1) q)) :=
  (dat9 (F := Ideal) V c).arrAt_eq_of_cover 3 _ (fun t _ => flushed9 V c t) cover9

end Cert.KernelIdeal.Blocks

end
-- ==== Proof.DenseBlocks10.lean ====
import proofs.«429891_j34660386078849_1_alg».proof.Proof.Gen.KernelIdeal.Frame
import proofs.«429891_j34660386078849_1_alg».proof.Proof.RowBlocks

noncomputable section

namespace Cert.KernelIdeal.Blocks

open Cert.KernelIdeal Cert.KernelIdeal.Gen Cert.Gcn Idealize.ShloMosaic Idealize.ShloMosaic.ValueIdx Idealize.ShloMosaic.TcCoe

/-- The body multiplies its row block by the weights and adds the bias row. -/
theorem pay10 (x : Vec Ideal S5000x32 .f32) (w : Vec Ideal S32x1 .f32) (b : Vec Ideal S1x1 .f32) :
    k10_pay1 (F := Ideal) x w b = dense x w (row b) := by
  funext j
  obtain ⟨p, q, rfl⟩ : ∃ (p : Fin 5000) (q : Fin 1), j = ix2 p q := ⟨j 0, j 1, eq_ix2 j⟩
  unfold k10_pay1
  rw [addf_apply, shapeCast_self, shapeCast_self, broadcastTo_1b_ab_apply]
  show matmul (DotDims.plain 5000 32 1) none _ _ _ (ix2 p q) + _ = _
  rw [matmul_plain]
  rfl

/-- The block indices at point `t`: `(t, 0)` for the row-blocked arrays, `(0, 0)` for the others. -/
theorem blockIndex10 : ∀ t : Fin cfg10.N,
    win10_0.index t = ![t.val, 0] ∧ win10_1.index t = ![0, 0] ∧ win10_2.index t = ![0, 0]
    ∧ win10_3.index t = ![t.val, 0] :=
  (by decide +kernel : ∀ t : Fin grid10.N, _)

variable (V : (c : Dev nD) → (b : Ref sig .tc) → Buf (Elt Ideal) ((c : Thread nD τ).loc b))

/-- What point `t` writes back is row block `t` of the dense layer. -/
theorem flushed10 (c : Dev nD) (t : Fin cfg10.N) :
    (dat10 (F := Ideal) V c).flushed 3 t = ((cfg10.win 3).blk t).view.read (Elt Ideal)
      (dense (V c main_v85) (V c main_arg16) (row (V c main_v86))) := by
  show (cfg10.win 3).cut (grid10.coords t) ((dat10 (F := Ideal) V c).after 3 t) = _
  rw [after10_3, out10_3, View.canon_unit_zero origin2]
  simp only [View.ld_unit_zero (S := S5000x32) origin2, View.ld_unit_zero (S := S32x1) origin2, View.ld_unit_zero (S := S1x1) origin2]
  obtain ⟨e0, e1, e2, e3⟩ := blockIndex10 t
  funext y
  refine (congrFun (pay10 _ _ _) y).trans ?_
  have s3 : RowShift (t.val * 5000) ((cfg10.win 3).blk t).view.emb := .of e3
  have s0 : RowShift (t.val * 5000) ((cfg10.win 0).blk t).view.emb := .of e0
  have s1 : RowShift 0 ((cfg10.win 1).blk t).view.emb := .of e1
  have s2 : RowShift 0 ((cfg10.win 2).blk t).view.emb := .of e2
  exact dense_rowShift s3 s0 s1 s2 (V c main_v85) (V c main_arg16) (V c main_v86) y

/-- Row `r` of the result is in the block of point `r / 5000`. -/
theorem cover10 (i : S100000x1.Idx) :
    ∃ t : Fin cfg10.N, (cfg10.win 3).flush t = true ∧ i ∈ ((cfg10.win 3).blk t).view.set := by
  let t : Fin cfg10.N := ⟨(i 0).val / 5000, Nat.div_lt_of_lt_mul (i 0).isLt⟩
  obtain ⟨-, -, -, h⟩ := blockIndex10 t
  refine ⟨t, flush10_3 t, ?_⟩
  show i ∈ ((View.whole main_v87).slice (win10_3.rect t)).set
  rw [View.set_slice_whole, Rect.mem_set_unit]
  exact mem_rowBlock i h (by decide)

theorem dense10 (c : Dev nD) :
    (dat10 (F := Ideal) V c).arrAt 3 cfg10.N
      = dense (V c main_v85) (V c main_arg16) (fun q : Fin 1 => V c main_v86 (ix2 (0 : Fin 1) q)) :=
  (dat10 (F := Ideal) V c).arrAt_eq_of_cover 3 _ (fun t _ => flushed10 V c t) cover10

end Cert.KernelIdeal.Blocks

end
-- ==== Proof.KernelHead.lean ====
import proofs.«429891_j34660386078849_1_alg».proof.Proof.Gen.KernelIdeal.Frame
import proofs.«429891_j34660386078849_1_alg».proof.Proof.Kept
import proofs.«429891_j34660386078849_1_alg».proof.Proof.DenseBlocks9
import proofs.«429891_j34660386078849_1_alg».proof.Proof.DenseBlocks10
import proofs.«429891_j34660386078849_1_alg».proof.Proof.Rows
import Idealize.ShloMosaic.Lib.StableHlo.Run

noncomputable section

namespace Cert.KernelIdeal.Chain

open Cert.KernelIdeal Cert.KernelIdeal.Gen Cert.KernelIdeal.Blocks Cert.KernelIdeal.Kept Cert.Gcn
open Idealize.ShloMosaic Idealize.ShloMosaic.ValueIdx Idealize.ShloMosaic.StableHlo Idealize.ShloMosaic.TcCoe Idealize.SL.Sem

variable (m : (ℓ : Loc nD τ sig) → Buf (Elt Ideal) ℓ) (ρ : Dev nD → PrngReg)

theorem biasRow9_cast (c : Dev nD) :
    W20 (F := Ideal) m ρ c (Proc.devRef .tc main_v84) = shapeCast S1x32 (W19 m ρ c (Proc.devRef .tc main_arg15)) shapeCasts_S32_S1x32 := by
  show StableHlo.after hostOps9 (W19 m ρ c) (Proc.devRef .tc main_v84) = _
  after_results
  rfl

theorem biasRow10_cast (c : Dev nD) :
    W22 (F := Ideal) m ρ c (Proc.devRef .tc main_v86) = shapeCast S1x1 (W21 m ρ c (Proc.devRef .tc main_arg17)) shapeCasts_S1_S1x1 := by
  show StableHlo.after hostOps10 (W21 m ρ c) (Proc.devRef .tc main_v86) = _
  after_results
  rfl

theorem result_cast (c : Dev nD) :
    W24 (F := Ideal) m ρ c (Proc.devRef .tc main_v88) = shapeCast S100000 (W23 m ρ c (Proc.devRef .tc main_v87)) shapeCasts_S100000x1_S100000 := by
  show StableHlo.after hostOps11 (W23 m ρ c) (Proc.devRef .tc main_v88) = _
  after_results
  rfl

/-- A column reshaped to a vector has the column's entry `(r, 0)` at `r`. -/
theorem column_apply (x : S100000x1.Idx → EReal) (r : Fin 100000) :
    shapeCast S100000 x shapeCasts_S100000x1_S100000 (ix1 r) = x (ix2 r (0 : Fin 1)) :=
  shapeCast_apply x shapeCasts_S100000x1_S100000 _ _ (by
    rw [Shape.rowMajor_val_two, Shape.rowMajor_val_one]
    show r.val * 1 + 0 = r.val
    omega)

/-- The first dense layer's output: `max (h · w₁ + b₁) 0` of the third layer's output and the launch's weights and bias. -/
theorem hidden_at21 (c : Dev nD) :
    W21 (F := Ideal) m ρ c (Proc.devRef .tc main_v85)
      = denseClamp (W19 m ρ c (Proc.devRef .tc main_v83)) (m ((c.tc : Thread nD τ).loc main_arg14))
          (fun q : Fin 32 => m ((c.tc : Thread nD τ).loc main_arg15) (ix1 q)) := by
  show W21 m ρ c (Proc.devRef .tc (Pipeline.arrRef spec9 3)) = _
  refine (W21_arr m ρ c 3).trans ((denseClamp9 (V20 m ρ) c).trans ?_)
  rw [show V20 m ρ c main_v83 = W19 m ρ c (Proc.devRef .tc main_v83) from main_v83_19_20 m ρ c,
    show V20 m ρ c main_arg14 = m ((c.tc : Thread nD τ).loc main_arg14) from main_arg14_0_20 m ρ c,
    show (fun q : Fin 32 => V20 m ρ c main_v84 (ix2 (0 : Fin 1) q)) = fun q : Fin 32 => m ((c.tc : Thread nD τ).loc main_arg15) (ix1 q) from
      row_cast (biasRow9_cast m ρ c) (main_arg15_0_19 m ρ c)]

/-- The second dense layer's output: `a · w₂ + b₂` of the first one's output `a`. -/
theorem column_at23 (c : Dev nD) :
    W23 (F := Ideal) m ρ c (Proc.devRef .tc main_v87)
      = dense (denseClamp (W19 m ρ c (Proc.devRef .tc main_v83)) (m ((c.tc : Thread nD τ).loc main_arg14))
            (fun q : Fin 32 => m ((c.tc : Thread nD τ).loc main_arg15) (ix1 q)))
          (m ((c.tc : Thread nD τ).loc main_arg16)) (fun q : Fin 1 => m ((c.tc : Thread nD τ).loc main_arg17) (ix1 q)) := by
  show W23 m ρ c (Proc.devRef .tc (Pipeline.arrRef spec10 3)) = _
  refine (W23_arr m ρ c 3).trans ((dense10 (V22 m ρ) c).trans ?_)
  rw [show V22 m ρ c main_v85 = _ from (main_v85_21_22 m ρ c).trans (hidden_at21 m ρ c),
    show V22 m ρ c main_arg16 = m ((c.tc : Thread nD τ).loc main_arg16) from main_arg16_0_22 m ρ c,
    show (fun q : Fin 1 => V22 m ρ c main_v86 (ix2 (0 : Fin 1) q)) = fun q : Fin 1 => m ((c.tc : Thread nD τ).loc main_arg17) (ix1 q) from
      row_cast (biasRow10_cast m ρ c) (main_arg17_0_21 m ρ c)]

theorem head (c : Dev nD) :
    W24 (F := Ideal) m ρ c (Proc.devRef .tc main_v88)
      = fun i => dense (denseClamp (W19 m ρ c (Proc.devRef .tc main_v83)) (m ((c.tc : Thread nD τ).loc main_arg14)) (fun q : Fin 32 => m ((c.tc : Thread nD τ).loc main_arg15) (ix1 q)))
                       (m ((c.tc : Thread nD τ).loc main_arg16)) (fun q : Fin 1 => m ((c.tc : Thread nD τ).loc main_arg17) (ix1 q)) (ix2 (i 0) (0 : Fin 1)) := by
  refine funext fun (i : S100000.Idx) => ?_
  obtain ⟨r, rfl⟩ : ∃ r : Fin 100000, i = ix1 r := ⟨i 0, eq_ix1 i⟩
  exact (congrFun (result_cast m ρ c) (ix1 r)).trans ((column_apply _ r).trans (congrFun (column_at23 m ρ c) (ix2 r (0 : Fin 1))))

end Cert.KernelIdeal.Chain

end
-- ==== Proof.Reals.lean ====
import proofs.«429891_j34660386078849_1_alg».proof.Proof.Spec
import Idealize.ShloMosaic.PureOps.Ideal
import Idealize.ShloMosaic.PureOps.Ideal.Laws
import Mathlib.Data.EReal.Basic
import Mathlib.Data.EReal.Operations
import Mathlib.Data.EReal.Inv
import Mathlib.Analysis.Real.Sqrt
import Mathlib.Algebra.Order.BigOperators.Group.Finset
import Mathlib.Tactic.Ring
import Mathlib.Tactic.FieldSimp
import Mathlib.Tactic.Linarith
import Mathlib.Tactic.NormNum

noncomputable section

namespace Cert.Gcn

open Idealize.ShloMosaic Idealize.ShloMosaic.ValueIdx
open scoped BigOperators

theorem isReal_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

theorem isReal_sub {a b : EReal} (ha : ∃ r : ℝ, a = r) (hb : ∃ r : ℝ, b = r) : ∃ r : ℝ, a - b = r := by
  obtain ⟨x, rfl⟩ := ha
  obtain ⟨y, rfl⟩ := hb
  exact ⟨x - y, (EReal.coe_sub x y).symm⟩

theorem isReal_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem isReal_max {a b : EReal} (ha : ∃ r : ℝ, a = r) (hb : ∃ r : ℝ, b = r) : ∃ r : ℝ, max a b = r := by
  rcases le_total a b with h | h
  · rw [max_eq_right h]; exact hb
  · rw [max_eq_left h]; exact ha

theorem isReal_sum {ι : Type} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact isReal_add (h a (Finset.mem_insert_self a s)) (ih (fun i hi => h i (Finset.mem_insert_of_mem hi)))

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem nodes_eq : nodes = ((100000 : ℝ) : EReal) := by
  unfold nodes
  simp [Ideal.ofBits, Ideal.ieee]
  rw [← EReal.coe_mul, EReal.coe_eq_coe_iff]
  norm_num

theorem varEps_pos : ∃ r : ℝ, 0 < r ∧ varEps = r := by
  unfold varEps
  simp [Ideal.ofBits, Ideal.ieee]
  exact ⟨_, by positivity, (EReal.coe_mul _ _).symm⟩

theorem ofBits_one : Ideal.ofBits .f32 0x3F800000#32 = ((1 : ℝ) : EReal) := by
  simp [Ideal.ofBits, Ideal.ieee]
  have e : (8388608 : ℝ) * (2 ^ 23)⁻¹ = 1 := by norm_num
  rw [← EReal.coe_mul, e]
  rfl

theorem ofBits_tiny_pos : ∃ r : ℝ, 0 < r ∧ Ideal.ofBits .f32 0x2B8CBCCC#32 = r := by
  simp [Ideal.ofBits, Ideal.ieee]
  exact ⟨_, by positivity, (EReal.coe_mul _ _).symm⟩

theorem nodes_ne_zero : (100000 : ℝ) ≠ 0 := by norm_num

theorem isReal_div_nodes {a : EReal} (ha : ∃ r : ℝ, a = r) : ∃ r : ℝ, Ideal.div a nodes = r := by
  rw [nodes_eq, Ideal.div_coe nodes_ne_zero]
  exact isReal_mul ha ⟨_, rfl⟩

theorem isReal_rsqrt_of_pos {a : EReal} (ha : ∃ r : ℝ, 0 < r ∧ a = r) :
    ∃ r : ℝ, 0 < r ∧ Ideal.rsqrt a = r := by
  obtain ⟨r, hr, rfl⟩ := ha
  rw [Ideal.rsqrt_coe, if_neg (not_lt.mpr hr.le), if_neg hr.ne']
  exact ⟨(Real.sqrt r)⁻¹, inv_pos.mpr (Real.sqrt_pos.mpr hr), rfl⟩

theorem allReal_mm {n k m : ℕ} {x : Mat n k} {w : Mat k m} (hx : AllReal x) (hw : AllReal w) :
    AllReal (mm x w) := by
  intro j
  exact isReal_sum _ _ (fun l _ => isReal_mul (hx _) (hw _))

theorem allReal_addRow {n m : ℕ} {a : Mat n m} {b : Fin m → EReal} (ha : AllReal a) (hb : AllReal b) :
    AllReal (addRow a b) := by
  intro j
  exact isReal_add (ha j) (hb (j 1))

theorem allReal_scatterAdd {s si u : Shape} {w : ℕ} (d : ScatterDims s si u) (x : s.Idx → EReal) (idx : IVec si w)
    (upd : u.Idx → EReal) (hx : AllReal x) (hu : AllReal upd) : AllReal (Ideal.hostScatterAdd d x idx upd) := by
  intro i
  exact isReal_add (hx i) (isReal_sum _ _ (fun j _ => hu j))

theorem allReal_dense {n k m : ℕ} {x : Mat n k} {w : Mat k m} {b : Fin m → EReal} (hx : AllReal x)
    (hw : AllReal w) (hb : AllReal b) : AllReal (dense x w b) := by
  intro j
  exact isReal_add (allReal_mm hx hw j) (hb (j 1))

theorem allReal_denseClamp {n k m : ℕ} {x : Mat n k} {w : Mat k m} {b : Fin m → EReal} (hx : AllReal x)
    (hw : AllReal w) (hb : AllReal b) : AllReal (denseClamp x w b) := by
  intro j
  exact isReal_max (allReal_dense hx hw hb j) ⟨0, rfl⟩

theorem real_variance_law {n : ℕ} (g : Fin n → ℝ) (N : ℝ) (hN : N = n) (hN0 : N ≠ 0) :
    (∑ r, g r * g r) * (1 / N) - (∑ r, g r) * (1 / N) * ((∑ r, g r) * (1 / N))
      = (∑ r, (g r - (∑ r, g r) * (1 / N)) * (g r - (∑ r, g r) * (1 / N))) * (1 / N) := by
  obtain ⟨c, hc⟩ : ∃ c : ℝ, (∑ r, g r) * (1 / N) = c := ⟨_, rfl⟩
  have hS : ∑ r, g r = N * c := by rw [← hc]; field_simp
  rw [hc]
  have e : ∀ r, (g r - c) * (g r - c) = g r * g r - 2 * c * g r + c * c := fun r => by ring
  have key : ∑ r, (g r - c) * (g r - c) = (∑ r, g r * g r) - 2 * c * (∑ r, g r) + N * (c * c) := by
    simp only [e]
    rw [Finset.sum_add_distrib, Finset.sum_sub_distrib, ← Finset.mul_sum, Finset.sum_const, Finset.card_univ,
      Fintype.card_fin, nsmul_eq_mul, hN]
  rw [key, hS]
  field_simp
  ring

section Column

variable {m : ℕ} (h : Mat 100000 m) (f : (⟨2, ![100000, m]⟩ : Shape).Idx → ℝ) (hf : ∀ i, h i = (f i : EReal))

include hf

theorem colMean_coe (q : Fin m) :
    colMean h q = (((∑ r : Fin 100000, f (ix2 r q)) * (1 / 100000) : ℝ) : EReal) := by
  unfold colMean colSum
  rw [nodes_eq, Ideal.div_coe nodes_ne_zero]
  simp only [hf, coe_sum, ← EReal.coe_mul]

theorem colVarOfSquares_coe (q : Fin m) :
    colVarOfSquares h q = (((∑ r : Fin 100000, f (ix2 r q) * f (ix2 r q)) * (1 / 100000)
      - (∑ r : Fin 100000, f (ix2 r q)) * (1 / 100000) * ((∑ r : Fin 100000, f (ix2 r q)) * (1 / 100000)) : ℝ) : EReal) := by
  unfold colVarOfSquares colSumSq
  rw [colMean_coe h f hf q, nodes_eq, Ideal.div_coe nodes_ne_zero]
  simp only [hf, coe_sum, ← EReal.coe_mul, ← EReal.coe_sub]

theorem colVarOfDeviations_coe (q : Fin m) :
    colVarOfDeviations h q = (((∑ r : Fin 100000, (f (ix2 r q) - (∑ r : Fin 100000, f (ix2 r q)) * (1 / 100000))
      * (f (ix2 r q) - (∑ r : Fin 100000, f (ix2 r q)) * (1 / 100000))) * (1 / 100000) : ℝ) : EReal) := by
  unfold colVarOfDeviations
  rw [colMean_coe h f hf q, nodes_eq, Ideal.div_coe nodes_ne_zero]
  simp only [hf, coe_sum, ← EReal.coe_mul, ← EReal.coe_sub]

end Column

theorem colVar_eq {m : ℕ} (h : Mat 100000 m) (hr : AllReal h) (q : Fin m) :
    colVarOfSquares h q = colVarOfDeviations h q := by
  choose f hf using hr
  rw [colVarOfSquares_coe h f hf q, colVarOfDeviations_coe h f hf q, EReal.coe_eq_coe_iff]
  exact real_variance_law (fun r : Fin 100000 => f (ix2 r q)) 100000 (by norm_num) nodes_ne_zero

theorem colVarOfDeviations_real {m : ℕ} (h : Mat 100000 m) (hr : AllReal h) (q : Fin m) :
    ∃ r : ℝ, 0 ≤ r ∧ colVarOfDeviations h q = r := by
  choose f hf using hr
  refine ⟨_, ?_, colVarOfDeviations_coe h f hf q⟩
  exact mul_nonneg (Finset.sum_nonneg (fun r _ => mul_self_nonneg _)) (by norm_num)

theorem normOfSquares_eq {m : ℕ} (h : Mat 100000 m) (hr : AllReal h) (g be : Fin m → EReal) :
    normOfSquares h g be = normOfDeviations h g be := by
  have e : colVarOfSquares h = colVarOfDeviations h := funext (colVar_eq h hr)
  unfold normOfSquares normOfDeviations
  rw [e]

theorem allReal_normOfDeviations {m : ℕ} (h : Mat 100000 m) (hr : AllReal h) {g be : Fin m → EReal}
    (hg : AllReal g) (hbe : AllReal be) : AllReal (normOfDeviations h g be) := by
  intro j
  have hmean : ∃ r : ℝ, colMean h (j 1) = r := isReal_div_nodes (isReal_sum _ _ (fun r _ => hr _))
  obtain ⟨v, hv0, hv⟩ := colVarOfDeviations_real h hr (j 1)
  obtain ⟨e, he0, he⟩ := varEps_pos
  have hrs : ∃ r : ℝ, Ideal.rsqrt (colVarOfDeviations h (j 1) + varEps) = r := by
    obtain ⟨r, _, hr'⟩ := isReal_rsqrt_of_pos (a := colVarOfDeviations h (j 1) + varEps)
      ⟨v + e, by linarith, by rw [hv, he, EReal.coe_add]⟩
    exact ⟨r, hr'⟩
  exact isReal_max
    (isReal_add (isReal_mul (isReal_mul (isReal_sub (hr j) hmean) hrs) (hg (j 1))) (hbe (j 1)))
    ⟨0, rfl⟩

end Cert.Gcn

end
-- ==== Proof.EdgeFacts.lean ====
import proofs.«429891_j34660386078849_1_alg».proof.Proof.TakeOps
import proofs.«429891_j34660386078849_1_alg».proof.Proof.Reals
import proofs.«429891_j34660386078849_1_alg».proof.Proof.Spec
import Idealize.ShloMosaic.Lib.ValueIdx
import Idealize.ShloMosaic.Lib.Pipeline.Value
import Idealize.ShloMosaic.Lib.Affine
import Idealize.ShloMosaic.PureOps.Reduce
import Idealize.ShloMosaic.PureOps.Ideal

noncomputable section

namespace Cert.KernelIdeal.Edges

open Cert.KernelIdeal Idealize.ShloMosaic Idealize.ShloMosaic.ValueIdx

section General

open Cert.Gcn

theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    have e : IntOp.andi 1#1 1#1 = (1#1 : BitVec 1) := by decide
    rw [e]
    exact ih

theorem ofBits_zero : Ideal.ofBits .f32 0x00000000#32 = ((0 : ℝ) : EReal) := by
  simp [Ideal.ofBits, Ideal.ieee]

theorem isReal_max_pos {a b : EReal} (ha : ∃ r : ℝ, a = r) (hb : ∃ r : ℝ, 0 < r ∧ b = r) :
    ∃ r : ℝ, 0 < r ∧ max a b = r := by
  obtain ⟨x, rfl⟩ := ha
  obtain ⟨y, hy, rfl⟩ := hb
  rcases le_total (x : EReal) (y : EReal) with hle | hle
  · rw [max_eq_right hle]
    exact ⟨y, hy, rfl⟩
  · rw [max_eq_left hle]
    exact ⟨x, lt_of_lt_of_le hy (EReal.coe_le_coe_iff.mp hle), rfl⟩

theorem allReal_broadcastInDim {s t : Shape} (dims : Fin s.rank → Fin t.rank) (hb : s.BroadcastsInDim t dims)
    (x : s.Idx → EReal) (hx : AllReal x) : AllReal (broadcastInDim t dims hb x) := fun _ => hx _

theorem allReal_gather {s si t : Shape} {w : ℕ} (d : GatherDims s si t) (x : s.Idx → EReal) (idx : IVec si w)
    (hx : AllReal x) : AllReal (Host.gather d x idx) := fun _ => hx _

theorem hostRsqrt_apply {s : Shape} (x : FVec Ideal s .f32) (i : s.Idx) : Host.rsqrt x i = Ideal.rsqrt (x i) := rfl

theorem hostScatterAdd_ideal {s si u : Shape} {w : ℕ} (d : ScatterDims s si u) (x : FVec Ideal s .f32) (idx : IVec si w)
    (upd : FVec Ideal u .f32) : Host.scatterAdd d x idx upd = Ideal.hostScatterAdd d x idx upd := rfl

end General

variable [Facts₀]

open Facts₀

theorem sources_inRange (a1 : IVec S2x1600000 32)
    (h : ∀ e : Fin 1600000, 0 ≤ (a1 (ValueIdx.ix2 (0 : Fin 2) e)).toInt ∧ (a1 (ValueIdx.ix2 (0 : Fin 2) e)).toInt < 100000) :
    ∀ j : S1700000.Idx, 0 ≤ (sources a1 j).toInt ∧ (sources a1 j).toInt < 100000 := by
  intro j
  obtain ⟨p, rfl⟩ : ∃ p : Fin 1700000, j = ix1 p := ⟨j 0, eq_ix1 j⟩
  by_cases hp : p.val < 1600000
  ·
    have e : sources a1 (ix1 p) = a1 (ix2 (0 : Fin 2) (⟨p.val, hp⟩ : Fin 1600000)) := by
      unfold sources
      refine (concatenate_pair_apply_left (0 : Fin S1700000.rank) _ _ concatenates_S1600000_S100000_S1700000_d0
        (ix1 p) rfl (ix1 (⟨p.val, hp⟩ : Fin 1600000)) (fun b => ?_)).trans ?_
      · match b with
        | ⟨0, _⟩ => rfl
      · refine (shapeCast_apply _ shapeCasts_S1x1600000_S1600000 (ix1 (⟨p.val, hp⟩ : Fin 1600000))
          (ix2 (0 : Fin 1) (⟨p.val, hp⟩ : Fin 1600000)) ?_).trans ?_
        · rw [Shape.rowMajor_val_one, Shape.rowMajor_val_two]
          show 0 * 1600000 + p.val = p.val
          omega
        · refine extractStridedSlice_apply _ a1 slices_S2x1600000_S1x1600000_0_0 _
            (ix2 (0 : Fin 2) (⟨p.val, hp⟩ : Fin 1600000)) (fun a => ?_)
          match a with
          | ⟨0, _⟩ => rfl
          | ⟨1, _⟩ => show p.val = 0 + p.val; omega
    rw [e]
    exact h _
  ·
    have hq : p.val - 1600000 < 100000 := by have := p.isLt; omega
    have e : sources a1 (ix1 p) = BitVec.ofNat 32 (p.val - 1600000) := by
      unfold sources
      refine (concatenate_pair_apply_right (0 : Fin S1700000.rank) _ _ concatenates_S1600000_S100000_S1700000_d0
        (ix1 p) rfl rfl (ix1 (⟨p.val - 1600000, hq⟩ : Fin 100000)) (fun b hb => ?_) ?_).trans ?_
      · exfalso
        apply hb
        apply Fin.ext
        have hb1 : b.val < 1 := b.isLt
        show b.val = 0
        omega
      · show (p.val - 1600000) + 1600000 = p.val
        omega
      · rfl
    rw [e]

    have e2 := BitVec.toInt_eq_toNat_cond (BitVec.ofNat 32 (p.val - 1600000))
    rw [BitVec.toNat_ofNat] at e2
    omega

theorem wrapped_of_nonneg (src : IVec S1700000 32) (k : S1700000.Idx) (h0 : 0 ≤ (src k).toInt) :
    wrapped src k = src k := by
  show Scalar.select (IntOp.cmpi .slt (src k) 0#32) (IntOp.addi (src k) 100000#32) (src k) = src k
  have hc : ¬ IntOp.cmpi .slt (src k) 0#32 = 1#1 := by
    rw [IntOp.cmpi_slt]
    have z : (0#32 : BitVec 32).toInt = 0 := by decide
    omega
  rw [eq_zero_of_ne_one hc, select_zero]

theorem asColumn_entry (v : IVec S1700000 32) (i : S1700000x1.Idx) : ∃ k : S1700000.Idx, asColumn v i = v k :=
  ⟨_, rfl⟩

/-- With every source a node the guard of the take holds on every edge. -/
theorem inTable_eq_one (src : IVec S1700000 32)
    (h : ∀ j : S1700000.Idx, 0 ≤ (src j).toInt ∧ (src j).toInt < 100000) :
    inTable src = fun _ => 1#1 := by
  funext j
  have hX : ∀ i : S1700000x1.Idx,
      IntOp.andi (IntOp.cmpi .sge (asColumn (wrapped src) i) 0#32) (IntOp.cmpi .sle (asColumn (wrapped src) i) 99999#32)
        = 1#1 := by
    intro i
    obtain ⟨k, hk⟩ := asColumn_entry (wrapped src) i
    rw [hk, wrapped_of_nonneg src k (h k).1]
    have h1 : IntOp.cmpi .sge (src k) 0#32 = 1#1 := by
      rw [IntOp.cmpi_sge]
      have z : (0#32 : BitVec 32).toInt = 0 := by decide
      have := (h k).1
      omega
    have h2 : IntOp.cmpi .sle (src k) 99999#32 = 1#1 := by
      rw [IntOp.cmpi_sle]
      have z : (99999#32 : BitVec 32).toInt = 99999 := by decide
      have := (h k).2
      omega
    rw [h1, h2]
    decide
  show Host.reduce IntOp.andi
      (fun i : S1700000x1.Idx => IntOp.andi (IntOp.cmpi .sge (asColumn (wrapped src) i) 0#32)
        (IntOp.cmpi .sle (asColumn (wrapped src) i) 99999#32))
      (constantI S_ 1 1#1) reducesTo_S1700000x1_S1700000_d1 h_S_ j = 1#1
  rw [Host.reduce_eq_foldl]
  exact foldl_andi_one _ hX _

theorem takeRows128_eq_gather {F : FTy → Type} [FloatOps F] (src : IVec S1700000 32) (hp : FVec F S100000x128 .f32)
    (h : ∀ j : S1700000.Idx, 0 ≤ (src j).toInt ∧ (src j).toInt < 100000) :
    takeRows128 src hp = Host.gather gather_S100000x128_S1700000x1_S1700000x128_1_0_n_n_0_1_1128 hp (asColumn (wrapped src)) := by
  unfold takeRows128
  rw [inTable_eq_one src h]
  funext i
  exact select_one _ _

theorem takeRows64_eq_gather {F : FTy → Type} [FloatOps F] (src : IVec S1700000 32) (hp : FVec F S100000x64 .f32)
    (h : ∀ j : S1700000.Idx, 0 ≤ (src j).toInt ∧ (src j).toInt < 100000) :
    takeRows64 src hp = Host.gather gather_S100000x64_S1700000x1_S1700000x64_1_0_n_n_0_1_164 hp (asColumn (wrapped src)) := by
  unfold takeRows64
  rw [inTable_eq_one src h]
  funext i
  exact select_one _ _

theorem aggregateTaken128_eq {F : FTy → Type} [FloatOps F] (src tgt : IVec S1700000 32) (wts : FVec F S1700000x1 .f32)
    (hp : FVec F S100000x128 .f32) (h : ∀ j : S1700000.Idx, 0 ≤ (src j).toInt ∧ (src j).toInt < 100000) :
    aggregateTaken128 src tgt wts hp = aggregate128 src tgt wts hp := by
  unfold aggregateTaken128 aggregate128
  rw [takeRows128_eq_gather src hp h]

theorem aggregateTaken64_eq {F : FTy → Type} [FloatOps F] (src tgt : IVec S1700000 32) (wts : FVec F S1700000x1 .f32)
    (hp : FVec F S100000x64 .f32) (h : ∀ j : S1700000.Idx, 0 ≤ (src j).toInt ∧ (src j).toInt < 100000) :
    aggregateTaken64 src tgt wts hp = aggregate64 src tgt wts hp := by
  unfold aggregateTaken64 aggregate64
  rw [takeRows64_eq_gather src hp h]

section Reals

open Cert.Gcn

theorem allReal_zeros {t : Shape} (hb : S_.BroadcastsInDim t (![] : Fin 0 → Fin t.rank)) :
    AllReal (broadcastInDim t ![] hb (constant (F := Ideal) S_ .f32 0x00000000#32)) :=
  fun _ => ⟨0, ofBits_zero⟩

theorem allReal_ones :
    AllReal (broadcastInDim S1700000 ![] bcast_S_S1700000 (constant (F := Ideal) S_ .f32 0x3F800000#32)) :=
  fun _ => ⟨1, ofBits_one⟩

theorem allReal_tiny : ∀ i : S100000.Idx, ∃ r : ℝ, 0 < r ∧
    broadcastInDim S100000 ![] bcast_S_S100000 (constant (F := Ideal) S_ .f32 0x2B8CBCCC#32) i = r :=
  fun _ => ofBits_tiny_pos

theorem degree_real (tgt : IVec S1700000 32) :
    AllReal (Ideal.hostScatterAdd scatter_S100000_S1700000x1_S1700000_n_0_0_1
      (broadcastInDim S100000 ![] bcast_S_S100000 (constant (F := Ideal) S_ .f32 0x00000000#32)) (asColumn tgt)
      (broadcastInDim S1700000 ![] bcast_S_S1700000 (constant (F := Ideal) S_ .f32 0x3F800000#32))) :=
  allReal_scatterAdd _ _ _ _ (allReal_zeros _) allReal_ones

theorem allReal_invSqrtDegree (tgt : IVec S1700000 32) : AllReal (invSqrtDegree (F := Ideal) tgt) := by
  intro i
  unfold invSqrtDegree
  rw [hostRsqrt_apply, maximumf_apply, hostScatterAdd_ideal]
  obtain ⟨r, _, hr⟩ := isReal_rsqrt_of_pos (isReal_max_pos (degree_real tgt i) (allReal_tiny i))
  exact ⟨r, hr⟩

/-- A degree is at least the tiny constant, so its reciprocal root is real, and so is every edge weight. -/
theorem allReal_edgeWeights (src tgt : IVec S1700000 32) : Cert.Gcn.AllReal (edgeWeights (F := Ideal) src tgt) := by
  unfold edgeWeights
  refine allReal_broadcastInDim _ _ _ (fun k => ?_)
  rw [mulf_apply]
  exact isReal_mul (allReal_gather _ _ _ (allReal_invSqrtDegree tgt) k)
    (allReal_gather _ _ _ (allReal_invSqrtDegree tgt) k)

theorem allReal_aggregate128 (src tgt : IVec S1700000 32) (wts : FVec Ideal S1700000x1 .f32)
    (hp : FVec Ideal S100000x128 .f32) (hw : Cert.Gcn.AllReal wts) (hh : Cert.Gcn.AllReal hp) :
    Cert.Gcn.AllReal (aggregate128 (F := Ideal) src tgt wts hp) := by
  unfold aggregate128
  rw [hostScatterAdd_ideal]
  refine allReal_scatterAdd _ _ _ _ (allReal_zeros _) (fun k => ?_)
  rw [mulf_apply]
  exact isReal_mul (allReal_gather _ hp _ hh k) (allReal_broadcastInDim _ _ wts hw k)

theorem allReal_aggregate64 (src tgt : IVec S1700000 32) (wts : FVec Ideal S1700000x1 .f32)
    (hp : FVec Ideal S100000x64 .f32) (hw : Cert.Gcn.AllReal wts) (hh : Cert.Gcn.AllReal hp) :
    Cert.Gcn.AllReal (aggregate64 (F := Ideal) src tgt wts hp) := by
  unfold aggregate64
  rw [hostScatterAdd_ideal]
  refine allReal_scatterAdd _ _ _ _ (allReal_zeros _) (fun k => ?_)
  rw [mulf_apply]
  exact isReal_mul (allReal_gather _ hp _ hh k) (allReal_broadcastInDim _ _ wts hw k)

end Reals

end Cert.KernelIdeal.Edges

end
-- ==== Proof.Network.lean ====
import proofs.«429891_j34660386078849_1_alg».proof.Proof.EdgeFacts
import proofs.«429891_j34660386078849_1_alg».proof.Proof.Reals

noncomputable section

namespace Cert.KernelIdeal.Net

open Cert.KernelIdeal Cert.KernelIdeal.Edges Cert.Gcn Idealize.ShloMosaic Idealize.ShloMosaic.ValueIdx

variable [Facts₀]

abbrev Row (n : ℕ) : Type := (⟨1, ![n]⟩ : Shape).Idx → EReal

def layerTaken128 (s t : IVec S1700000 32) (wt : FVec Ideal S1700000x1 .f32) (h : Mat 100000 128) (w : Mat 128 128)
    (b g be : Row 128) : Mat 100000 128 :=
  normOfSquares (addRow (aggregateTaken128 (F := Ideal) s t wt (mm h w)) (fun q : Fin 128 => b (ix1 q)))
    (fun q : Fin 128 => g (ix1 q)) (fun q : Fin 128 => be (ix1 q))

def layer128 (s t : IVec S1700000 32) (wt : FVec Ideal S1700000x1 .f32) (h : Mat 100000 128) (w : Mat 128 128)
    (b g be : Row 128) : Mat 100000 128 :=
  normOfDeviations (addRow (aggregate128 (F := Ideal) s t wt (mm h w)) (fun q : Fin 128 => b (ix1 q)))
    (fun q : Fin 128 => g (ix1 q)) (fun q : Fin 128 => be (ix1 q))

def layerTaken64 (s t : IVec S1700000 32) (wt : FVec Ideal S1700000x1 .f32) (h : Mat 100000 128) (w : Mat 128 64)
    (b g be : Row 64) : Mat 100000 64 :=
  normOfSquares (addRow (aggregateTaken64 (F := Ideal) s t wt (mm h w)) (fun q : Fin 64 => b (ix1 q)))
    (fun q : Fin 64 => g (ix1 q)) (fun q : Fin 64 => be (ix1 q))

def layer64 (s t : IVec S1700000 32) (wt : FVec Ideal S1700000x1 .f32) (h : Mat 100000 128) (w : Mat 128 64)
    (b g be : Row 64) : Mat 100000 64 :=
  normOfDeviations (addRow (aggregate64 (F := Ideal) s t wt (mm h w)) (fun q : Fin 64 => b (ix1 q)))
    (fun q : Fin 64 => g (ix1 q)) (fun q : Fin 64 => be (ix1 q))

def headOf (h : Mat 100000 64) (wc1 : Mat 64 32) (bc1 : Row 32) (wc2 : Mat 32 1) (bc2 : Row 1) : Row 100000 :=
  fun i => dense (denseClamp h wc1 (fun q : Fin 32 => bc1 (ix1 q))) wc2 (fun q : Fin 1 => bc2 (ix1 q)) (ix2 (i 0) (0 : Fin 1))

theorem allReal_row {n : ℕ} {b : Row n} (hb : AllReal b) : AllReal (fun q : Fin n => b (ix1 q)) := fun q => hb (ix1 q)

theorem layerTaken128_eq (s t : IVec S1700000 32) (wt : FVec Ideal S1700000x1 .f32) (h : Mat 100000 128) (w : Mat 128 128)
    (b g be : Row 128) (hs : ∀ j : S1700000.Idx, 0 ≤ (s j).toInt ∧ (s j).toInt < 100000)
    (hwt : AllReal wt) (hh : AllReal h) (hw : AllReal w) (hb : AllReal b) :
    layerTaken128 s t wt h w b g be = layer128 s t wt h w b g be := by
  unfold layerTaken128 layer128
  rw [aggregateTaken128_eq s t wt (mm h w) hs]
  exact normOfSquares_eq _ (allReal_addRow (allReal_aggregate128 s t wt (mm h w) hwt (allReal_mm hh hw)) (allReal_row hb)) _ _

theorem allReal_layer128 (s t : IVec S1700000 32) (wt : FVec Ideal S1700000x1 .f32) (h : Mat 100000 128) (w : Mat 128 128)
    (b g be : Row 128) (hwt : AllReal wt) (hh : AllReal h) (hw : AllReal w) (hb : AllReal b) (hg : AllReal g) (hbe : AllReal be) :
    AllReal (layer128 s t wt h w b g be) :=
  allReal_normOfDeviations _ (allReal_addRow (allReal_aggregate128 s t wt (mm h w) hwt (allReal_mm hh hw)) (allReal_row hb))
    (allReal_row hg) (allReal_row hbe)

theorem layerTaken64_eq (s t : IVec S1700000 32) (wt : FVec Ideal S1700000x1 .f32) (h : Mat 100000 128) (w : Mat 128 64)
    (b g be : Row 64) (hs : ∀ j : S1700000.Idx, 0 ≤ (s j).toInt ∧ (s j).toInt < 100000)
    (hwt : AllReal wt) (hh : AllReal h) (hw : AllReal w) (hb : AllReal b) :
    layerTaken64 s t wt h w b g be = layer64 s t wt h w b g be := by
  unfold layerTaken64 layer64
  rw [aggregateTaken64_eq s t wt (mm h w) hs]
  exact normOfSquares_eq _ (allReal_addRow (allReal_aggregate64 s t wt (mm h w) hwt (allReal_mm hh hw)) (allReal_row hb)) _ _

def kernelNet (a0 : Mat 100000 128) (a1 : IVec S2x1600000 32) (a2 : Mat 128 128) (a3 a4 a5 : Row 128) (a6 : Mat 128 128)
    (a7 a8 a9 : Row 128) (a10 : Mat 128 64) (a11 a12 a13 : Row 64) (a14 : Mat 64 32) (a15 : Row 32) (a16 : Mat 32 1)
    (a17 : Row 1) : Row 100000 :=
  let s := sources a1
  let t := targets a1
  let wt := edgeWeights (F := Ideal) s t
  headOf (layerTaken64 s t wt (layerTaken128 s t wt (layerTaken128 s t wt a0 a2 a3 a4 a5) a6 a7 a8 a9) a10 a11 a12 a13) a14 a15 a16 a17

def referenceNet (a0 : Mat 100000 128) (a1 : IVec S2x1600000 32) (a2 : Mat 128 128) (a3 a4 a5 : Row 128) (a6 : Mat 128 128)
    (a7 a8 a9 : Row 128) (a10 : Mat 128 64) (a11 a12 a13 : Row 64) (a14 : Mat 64 32) (a15 : Row 32) (a16 : Mat 32 1)
    (a17 : Row 1) : Row 100000 :=
  let s := sources a1
  let t := targets a1
  let wt := edgeWeights (F := Ideal) s t
  headOf (layer64 s t wt (layer128 s t wt (layer128 s t wt a0 a2 a3 a4 a5) a6 a7 a8 a9) a10 a11 a12 a13) a14 a15 a16 a17

/-- With real arguments and every source a node, the guarded take is the plain gather and the two variances agree, so the two networks are one function. -/
theorem kernelNet_eq_referenceNet (a0 : Mat 100000 128) (a1 : IVec S2x1600000 32) (a2 : Mat 128 128) (a3 a4 a5 : Row 128)
    (a6 : Mat 128 128) (a7 a8 a9 : Row 128) (a10 : Mat 128 64) (a11 a12 a13 : Row 64) (a14 : Mat 64 32) (a15 : Row 32)
    (a16 : Mat 32 1) (a17 : Row 1)
    (h0 : AllReal a0) (h2 : AllReal a2) (h3 : AllReal a3) (h4 : AllReal a4) (h5 : AllReal a5) (h6 : AllReal a6)
    (h7 : AllReal a7) (h8 : AllReal a8) (h9 : AllReal a9) (h10 : AllReal a10) (h11 : AllReal a11)
    (hsrc : ∀ e : Fin 1600000, 0 ≤ (a1 (ix2 (0 : Fin 2) e)).toInt ∧ (a1 (ix2 (0 : Fin 2) e)).toInt < 100000) :
    kernelNet a0 a1 a2 a3 a4 a5 a6 a7 a8 a9 a10 a11 a12 a13 a14 a15 a16 a17
      = referenceNet a0 a1 a2 a3 a4 a5 a6 a7 a8 a9 a10 a11 a12 a13 a14 a15 a16 a17 := by
  have hs := sources_inRange a1 hsrc
  have hwt := allReal_edgeWeights (sources a1) (targets a1)
  have e1 := layerTaken128_eq (sources a1) (targets a1) _ a0 a2 a3 a4 a5 hs hwt h0 h2 h3
  have r1 := allReal_layer128 (sources a1) (targets a1) _ a0 a2 a3 a4 a5 hwt h0 h2 h3 h4 h5
  have e2 := layerTaken128_eq (sources a1) (targets a1) _ (layer128 (sources a1) (targets a1) (edgeWeights (F := Ideal) (sources a1) (targets a1)) a0 a2 a3 a4 a5) a6 a7 a8 a9 hs hwt r1 h6 h7
  have r2 := allReal_layer128 (sources a1) (targets a1) _ (layer128 (sources a1) (targets a1) (edgeWeights (F := Ideal) (sources a1) (targets a1)) a0 a2 a3 a4 a5) a6 a7 a8 a9 hwt r1 h6 h7 h8 h9
  have e3 := layerTaken64_eq (sources a1) (targets a1) _ _ a10 a11 a12 a13 hs hwt r2 h10 h11
  unfold kernelNet referenceNet
  simp only []
  rw [e1, e2, e3]

end Cert.KernelIdeal.Net

end
-- ==== Proof.KernelResult.lean ====
import proofs.«429891_j34660386078849_1_alg».proof.Proof.KernelLayer1
import proofs.«429891_j34660386078849_1_alg».proof.Proof.KernelLayer2
import proofs.«429891_j34660386078849_1_alg».proof.Proof.KernelLayer3
import proofs.«429891_j34660386078849_1_alg».proof.Proof.KernelHead
import proofs.«429891_j34660386078849_1_alg».proof.Proof.TakeStretch
import proofs.«429891_j34660386078849_1_alg».proof.Proof.Network

set_option maxRecDepth 16384

noncomputable section

namespace Cert.KernelIdeal.Chain

open Cert.KernelIdeal Cert.KernelIdeal.Gen Cert.KernelIdeal.Edges Cert.KernelIdeal.Net Cert.Gcn
open Idealize.ShloMosaic Idealize.ShloMosaic.ValueIdx Idealize.ShloMosaic.TcCoe Idealize.SL.Sem

variable (m : (ℓ : Loc nD τ sig) → Buf (Elt Ideal) ℓ) (ρ : Dev nD → PrngReg)

/-- At the last boundary the result buffer holds the network of the arguments: the three layers and the head, chained. -/
theorem result (c : Dev nD) :
    W24 (F := Ideal) m ρ c (Proc.devRef .tc main_v88)
      = kernelNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  obtain ⟨e3, e6, e29⟩ := edges1 m ρ c
  rw [head m ρ c, layer3 m ρ (fun V => takeStretch3 V) c, layer2 m ρ c (takeStretch2 (W8 m ρ c)), layer1 m ρ c, e3, e6, e29]
  rfl

end Cert.KernelIdeal.Chain

end
-- ==== Proof.RefLayerLaws.lean ====
import proofs.«429891_j34660386078849_1_alg».proof.Proof.Spec
import Idealize.ShloMosaic.PureOps.Ideal.Laws
import Idealize.ShloMosaic.Lib.Pipeline.Value
import Idealize.ShloMosaic.Lib.ValueIdx
import Idealize.ShloMosaic.Lib.StableHlo.Predicate
import Idealize.ShloMosaic.Lib.StableHlo.Run
import Idealize.ShloMosaic.Lib.IdealHost

noncomputable section

namespace Cert.Gcn

open Idealize.ShloMosaic Idealize.ShloMosaic.ValueIdx Idealize.ShloMosaic.StableHlo Idealize.ShloMosaic.StableHlo.Predicate
  Idealize.SL.Sem
open scoped BigOperators

section Kept

variable {τ : Topo} {sig : RefSig} {Val : EltTy → Type}

/-- Every operation of the line writes one reference, of index at least `lo`. -/
def WritesFrom (lo : ℕ) (ops : List (HloOp τ sig Val)) : Prop :=
  ops.Forall fun op => ∃ y : Ref sig .tc, op.writes = {Proc.devRef .tc y} ∧ lo ≤ y.idx.val

/-- A reference below every index the line writes holds afterwards what it held before. -/
theorem WritesFrom.kept {lo : ℕ} {ops : List (HloOp τ sig Val)} (h : WritesFrom lo ops) (V : Valuation τ sig Val)
    {r : Ref sig .tc} (hr : r.idx.val < lo) : after ops V (no_index (Proc.devRef .tc r)) = V (Proc.devRef .tc r) :=
  after_of_forall_not_mem ops V fun op hop hb => by
    obtain ⟨y, hy, hlo⟩ := List.forall_iff_forall_mem.mp h op hop
    rw [hy, Finset.mem_singleton] at hb
    rw [Proc.devRef_injective _ hb] at hr
    exact absurd hlo (Nat.not_le.mpr hr)

theorem WritesFrom.take {lo : ℕ} {ops : List (HloOp τ sig Val)} (h : WritesFrom lo ops) (k : ℕ) : WritesFrom lo (ops.take k) :=
  List.forall_iff_forall_mem.mpr fun op hop => List.forall_iff_forall_mem.mp h op (List.mem_of_mem_take hop)

theorem WritesFrom.append {lo : ℕ} {l₁ l₂ : List (HloOp τ sig Val)} (h₁ : WritesFrom lo l₁) (h₂ : WritesFrom lo l₂) :
    WritesFrom lo (l₁ ++ l₂) :=
  List.forall_iff_forall_mem.mpr fun op hop =>
    (List.mem_append.mp hop).elim (List.forall_iff_forall_mem.mp h₁ op) (List.forall_iff_forall_mem.mp h₂ op)

theorem WritesFrom.mono {lo lo' : ℕ} {ops : List (HloOp τ sig Val)} (h : WritesFrom lo ops) (hle : lo' ≤ lo) : WritesFrom lo' ops :=
  List.forall_iff_forall_mem.mpr fun op hop =>
    let ⟨y, hy, hlo⟩ := List.forall_iff_forall_mem.mp h op hop
    ⟨y, hy, hle.trans hlo⟩

/-- A line read in two parts: the rest of it runs over what its first `k` operations leave. -/
theorem after_take_drop (k : ℕ) (ops : List (HloOp τ sig Val)) (V : Valuation τ sig Val) :
    after ops V = after (ops.drop k) (after (ops.take k) V) := by
  rw [← StableHlo.after_append, List.take_append_drop]

end Kept

theorem ij_eq_ix2 {n m : ℕ} (p : Fin n) (q : Fin m) : ij p q = ix2 p q := by
  funext d; match d with | ⟨0, _⟩ => rfl | ⟨1, _⟩ => rfl

theorem ofFin_eq_ix1 {m : ℕ} (q : Fin m) : Shape.Idx.ofFin q = ix1 q := by
  funext d; match d with | ⟨0, _⟩ => rfl

/-- A float word broadcast to any shape reads the word's value everywhere. -/
theorem splat_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_scalar_apply]; rfl

/-- The maximum with the zero word broadcast is the clamp at zero. -/
theorem maximumf_zero {t : Shape} (h : (⟨0, ![]⟩ : Shape).BroadcastsInDim t ![]) (a : FVec Ideal t .f32) :
    maximumf a (broadcastInDim t ![] h (constant ⟨0, ![]⟩ .f32 0x00000000#32)) = fun j => max (a j) 0 := by
  funext j
  show max (a j) _ = _
  rw [splat_apply, Ideal.ofBits_zero_f32]

/-- The plain product of an `M × K` array with a `K × N` one is the matrix product, entry by entry. -/
theorem dot_eq_mm {M K N : ℕ} (x : FVec Ideal ⟨2, ![M, K]⟩ .f32) (w : FVec Ideal ⟨2, ![K, N]⟩ .f32) :
    Host.dotGeneral (DotDims.plain M K N) none x w = mm x w := by
  funext j
  show FloatOps.dotGeneral (DotDims.plain M K N) none .single x w j = _
  rw [Ideal.dotGeneral_apply]
  unfold mm
  rw [← Equiv.sum_comp (contrEquiv1 (DotDims.plain M K N) K rfl rfl).symm]
  refine Finset.sum_congr rfl fun l _ => ?_
  have hk := contrEquiv1_symm_val (DotDims.plain M K N) K rfl rfl l
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- A column array read as a vector. -/
theorem shapeCast_col {α : Type} {n : ℕ} (hc : (⟨2, ![n, 1]⟩ : Shape).ShapeCasts ⟨1, ![n]⟩)
    (y : (⟨2, ![n, 1]⟩ : Shape).Idx → α) (i : (⟨1, ![n]⟩ : Shape).Idx) :
    shapeCast ⟨1, ![n]⟩ y hc i = y (ix2 (i 0) (0 : Fin 1)) :=
  shapeCast_apply y hc i _ (by
    rw [Shape.rowMajor_val_two, Shape.rowMajor_val_one]; show (i 0).val * 1 + 0 = (i 0).val; omega)

section Generic

variable {n m : ℕ}
  (hRow : (⟨1, ![m]⟩ : Shape).BroadcastsInDim ⟨2, ![1, m]⟩ ![1])
  (hDown : (⟨2, ![1, m]⟩ : Shape).BroadcastsInDim ⟨2, ![n, m]⟩ ![0, 1])
  (hVec : (⟨0, ![]⟩ : Shape).BroadcastsInDim ⟨1, ![m]⟩ ![])
  (hAll : (⟨0, ![]⟩ : Shape).BroadcastsInDim ⟨2, ![n, m]⟩ ![])
  (hSum' : (⟨2, ![n, m]⟩ : Shape).ReducesTo [0] ⟨1, ![m]⟩)
  (hSum : (⟨2, ![n, m]⟩ : Shape).Reduces [0] ⟨1, ![m]⟩)
  (h0 : 0 < (⟨0, ![]⟩ : Shape).numel)

/-- A vector of `m` entries laid along every row of an `n × m` array. -/
abbrev alongRows {α : Type} (v : (⟨1, ![m]⟩ : Shape).Idx → α) : (⟨2, ![n, m]⟩ : Shape).Idx → α :=
  broadcastInDim ⟨2, ![n, m]⟩ ![0, 1] hDown (broadcastInDim ⟨2, ![1, m]⟩ ![1] hRow v)

theorem alongRows_apply {α : Type} (v : (⟨1, ![m]⟩ : Shape).Idx → α) (p : Fin n) (q : Fin m) :
    alongRows hRow hDown v (ix2 p q) = v (ix1 q) := by
  have e := bcast_cols hRow hDown v p q
  rwa [ij_eq_ix2, ofFin_eq_ix1] at e

theorem addf_alongRows (a : FVec Ideal ⟨2, ![n, m]⟩ .f32) (b : FVec Ideal ⟨1, ![m]⟩ .f32) :
    addf a (alongRows hRow hDown b) = addRow a fun q => b (ix1 q) := by
  funext j
  obtain ⟨p, q, rfl⟩ : ∃ (p : Fin n) (q : Fin m), j = ix2 p q := ⟨j 0, j 1, eq_ix2 j⟩
  show a _ + alongRows hRow hDown b _ = a _ + b (ix1 q)
  rw [alongRows_apply]

theorem lift_rows (q : Fin m) (r : Fin n) : hSum.lift (ix1 q) r = ix2 r q := by
  funext c
  apply Fin.ext
  show Shape.Reduces.liftVal hSum (ix1 q) r.val c = (ix2 r q c).val
  unfold Shape.Reduces.liftVal
  match c with
  | ⟨0, _⟩ => simp
  | ⟨1, _⟩ => simp

include hSum in
/-- The sum over the rows, started from the zero word, is the sum of the column's entries. -/
theorem colSum_apply (x : FVec Ideal ⟨2, ![n, m]⟩ .f32) (q : Fin m) :
    Host.reduceAdd x (constant (F := Ideal) ⟨0, ![]⟩ .f32 0x00000000#32) hSum' h0 (ix1 q) = ∑ r : Fin n, x (ix2 r q) := by
  rw [hostReduceAdd_apply, Ideal.hostReduceAdd_single hSum' hSum]
  rw [show constant (F := Ideal) ⟨0, ![]⟩ .f32 0x00000000#32 (Shape.Idx.first h0) = Ideal.ofBits .f32 0x00000000#32 from rfl,
    Ideal.ofBits_zero_f32, zero_add]
  exact Finset.sum_congr rfl fun r _ => by rw [lift_rows hSum q r]

/-- The column means, spelt with the program's operations. -/
abbrev meanOps (y : FVec Ideal ⟨2, ![n, m]⟩ .f32) : FVec Ideal ⟨1, ![m]⟩ .f32 :=
  Host.divf (Host.reduceAdd y (constant ⟨0, ![]⟩ .f32 0x00000000#32) hSum' h0)
    (broadcastInDim ⟨1, ![m]⟩ ![] hVec (constant ⟨0, ![]⟩ .f32 0x47C35000#32))

/-- The column variances, from the squared deviations, spelt likewise. -/
abbrev varOps (y : FVec Ideal ⟨2, ![n, m]⟩ .f32) : FVec Ideal ⟨1, ![m]⟩ .f32 :=
  Host.divf
    (Host.reduceAdd
      (mulf (subf y (alongRows hRow hDown (meanOps hVec hSum' h0 y))) (subf y (alongRows hRow hDown (meanOps hVec hSum' h0 y))))
      (constant ⟨0, ![]⟩ .f32 0x00000000#32) hSum' h0)
    (broadcastInDim ⟨1, ![m]⟩ ![] hVec (constant ⟨0, ![]⟩ .f32 0x47C35000#32))

/-- The normalisation `max ((y − mean) · rsqrt (var + ε) · g + be) 0`, spelt likewise. -/
abbrev normOps (y : FVec Ideal ⟨2, ![n, m]⟩ .f32) (g be : FVec Ideal ⟨1, ![m]⟩ .f32) : FVec Ideal ⟨2, ![n, m]⟩ .f32 :=
  maximumf
    (addf
      (mulf
        (mulf
          (subf y (alongRows hRow hDown (meanOps hVec hSum' h0 y)))
          (alongRows hRow hDown
            (Host.rsqrt (addf (varOps hRow hDown hVec hSum' h0 y)
              (broadcastInDim ⟨1, ![m]⟩ ![] hVec (constant ⟨0, ![]⟩ .f32 0x3727C5AC#32))))))
        (alongRows hRow hDown g))
      (alongRows hRow hDown be))
    (broadcastInDim ⟨2, ![n, m]⟩ ![] hAll (constant ⟨0, ![]⟩ .f32 0x00000000#32))

include hSum in
theorem meanOps_apply (y : FVec Ideal ⟨2, ![n, m]⟩ .f32) (q : Fin m) :
    meanOps hVec hSum' h0 y (ix1 q) = colMean y q := by
  show Ideal.div (Host.reduceAdd y (constant (F := Ideal) ⟨0, ![]⟩ .f32 0x00000000#32) hSum' h0 (ix1 q))
    (broadcastInDim ⟨1, ![m]⟩ ![] hVec (constant (F := Ideal) ⟨0, ![]⟩ .f32 0x47C35000#32) (ix1 q)) = _
  rw [colSum_apply hSum' hSum h0, splat_apply]
  rfl

include hSum in
theorem varOps_apply (y : FVec Ideal ⟨2, ![n, m]⟩ .f32) (q : Fin m) :
    varOps hRow hDown hVec hSum' h0 y (ix1 q) = colVarOfDeviations y q := by
  show Ideal.div (Host.reduceAdd _ (constant (F := Ideal) ⟨0, ![]⟩ .f32 0x00000000#32) hSum' h0 (ix1 q))
    (broadcastInDim ⟨1, ![m]⟩ ![] hVec (constant (F := Ideal) ⟨0, ![]⟩ .f32 0x47C35000#32) (ix1 q)) = _
  rw [colSum_apply hSum' hSum h0, splat_apply]
  refine congrArg (Ideal.div · _) (Finset.sum_congr rfl fun r _ => ?_)
  show (y _ - alongRows hRow hDown _ (ix2 r q)) * (y _ - alongRows hRow hDown _ (ix2 r q)) = _
  rw [alongRows_apply, meanOps_apply hVec hSum' hSum h0]

include hSum in
/-- Read entry by entry, that spelling is the specification's normalisation by the squared deviations. -/
theorem normOps_eq (y : FVec Ideal ⟨2, ![n, m]⟩ .f32) (g be : FVec Ideal ⟨1, ![m]⟩ .f32) :
    normOps hRow hDown hVec hAll hSum' h0 y g be
      = normOfDeviations y (fun q : Fin m => g (ix1 q)) (fun q : Fin m => be (ix1 q)) := by
  rw [normOps, maximumf_zero]
  funext j
  obtain ⟨p, q, rfl⟩ : ∃ (p : Fin n) (q : Fin m), j = ix2 p q := ⟨j 0, j 1, eq_ix2 j⟩
  show max ((y _ - alongRows hRow hDown _ _) * alongRows hRow hDown _ _ * alongRows hRow hDown g _ + alongRows hRow hDown be _) 0 = _
  rw [alongRows_apply, alongRows_apply, alongRows_apply, alongRows_apply, meanOps_apply hVec hSum' hSum h0]
  show max ((_ - _) * Ideal.rsqrt (varOps hRow hDown hVec hSum' h0 y (ix1 q)
    + broadcastInDim ⟨1, ![m]⟩ ![] hVec (constant (F := Ideal) ⟨0, ![]⟩ .f32 0x3727C5AC#32) (ix1 q)) * _ + _) 0 = _
  rw [varOps_apply hRow hDown hVec hSum' hSum h0, splat_apply]
  rfl

include hSum in
/-- A layer read in two parts: the normalisation over an array `y`, and `y` itself, any aggregation `agg` of the product
    plus the bias. -/
theorem layer_eq {k : ℕ} (agg : FVec Ideal ⟨2, ![n, m]⟩ .f32 → FVec Ideal ⟨2, ![n, m]⟩ .f32)
    (x : FVec Ideal ⟨2, ![n, k]⟩ .f32) (w : FVec Ideal ⟨2, ![k, m]⟩ .f32) (b g be : FVec Ideal ⟨1, ![m]⟩ .f32)
    {out y : FVec Ideal ⟨2, ![n, m]⟩ .f32} {g' be' : FVec Ideal ⟨1, ![m]⟩ .f32}
    (hN : out = normOps hRow hDown hVec hAll hSum' h0 y g' be')
    (hB : y = addf (agg (Host.dotGeneral (DotDims.plain n k m) none x w)) (alongRows hRow hDown b))
    (hg : g' = g) (hbe : be' = be) :
    out = normOfDeviations (addRow (agg (mm x w)) fun q => b (ix1 q)) (fun q => g (ix1 q)) fun q => be (ix1 q) := by
  rw [hN, hB, hg, hbe, normOps_eq hRow hDown hVec hAll hSum' hSum h0, dot_eq_mm, addf_alongRows]

/-- The dense head: a dense layer clamped at zero, a dense layer of one column, and that column read as a vector. -/
theorem headOps_eq {k : ℕ} (hRow1 : (⟨1, ![1]⟩ : Shape).BroadcastsInDim ⟨2, ![1, 1]⟩ ![1])
    (hDown1 : (⟨2, ![1, 1]⟩ : Shape).BroadcastsInDim ⟨2, ![n, 1]⟩ ![0, 1])
    (hc : (⟨2, ![n, 1]⟩ : Shape).ShapeCasts ⟨1, ![n]⟩)
    (x : FVec Ideal ⟨2, ![n, k]⟩ .f32) (w1 : FVec Ideal ⟨2, ![k, m]⟩ .f32) (b1 : FVec Ideal ⟨1, ![m]⟩ .f32)
    (w2 : FVec Ideal ⟨2, ![m, 1]⟩ .f32) (b2 : FVec Ideal ⟨1, ![1]⟩ .f32) :
    shapeCast ⟨1, ![n]⟩
        (addf (Host.dotGeneral (DotDims.plain n m 1) none
            (maximumf (addf (Host.dotGeneral (DotDims.plain n k m) none x w1) (alongRows hRow hDown b1))
              (broadcastInDim ⟨2, ![n, m]⟩ ![] hAll (constant ⟨0, ![]⟩ .f32 0x00000000#32))) w2)
          (alongRows hRow1 hDown1 b2)) hc
      = fun i => dense (denseClamp x w1 fun q => b1 (ix1 q)) w2 (fun q => b2 (ix1 q)) (ix2 (i 0) (0 : Fin 1)) := by
  funext i
  rw [shapeCast_col, dot_eq_mm, dot_eq_mm, addf_alongRows, addf_alongRows, maximumf_zero]
  rfl

end Generic

end Cert.Gcn

end
-- ==== Proof.RefArgs.lean ====
import proofs.«429891_j34660386078849_1_alg».proof.Proof.RefOps
import proofs.«429891_j34660386078849_1_alg».proof.Proof.RefLayerLaws

set_option maxRecDepth 16384

noncomputable section

namespace Cert.ReferenceIdeal.Staged

open Cert.ReferenceIdeal Cert.ReferenceIdeal.Gen Cert.Gcn Idealize.ShloMosaic Idealize.ShloMosaic.TcCoe Idealize.SL.Sem Idealize.ShloMosaic.StableHlo

variable {F : FTy → Type} [FloatOps F]

/-- The operations write the references in the order of the program: each stretch from its own first result on. -/
theorem writes_edges : WritesFrom 18 (opsEdges : List (HloOp τ sig (Elt F))) := by
  simp only [WritesFrom, List.Forall]
  repeat' apply And.intro
  all_goals exact ⟨_, rfl, by decide⟩

theorem writes_layer1 : WritesFrom 55 (opsLayer1 : List (HloOp τ sig (Elt F))) := by
  simp only [WritesFrom, List.Forall]
  repeat' apply And.intro
  all_goals exact ⟨_, rfl, by decide⟩

theorem writes_layer2 : WritesFrom 107 (opsLayer2 : List (HloOp τ sig (Elt F))) := by
  simp only [WritesFrom, List.Forall]
  repeat' apply And.intro
  all_goals exact ⟨_, rfl, by decide⟩

theorem writes_layer3 : WritesFrom 159 (opsLayer3 : List (HloOp τ sig (Elt F))) := by
  simp only [WritesFrom, List.Forall]
  repeat' apply And.intro
  all_goals exact ⟨_, rfl, by decide⟩

theorem writes_head : WritesFrom 211 (opsHead : List (HloOp τ sig (Elt F))) := by
  simp only [WritesFrom, List.Forall]
  repeat' apply And.intro
  all_goals exact ⟨_, rfl, by decide⟩

/-- So every operation writes past the eighteen arguments, and none of them is ever written. -/
theorem writes_ops : WritesFrom 18 (ops : List (HloOp τ sig (Elt F))) :=
  writes_edges.append ((writes_layer1.mono (by decide)).append ((writes_layer2.mono (by decide)).append
    ((writes_layer3.mono (by decide)).append (writes_head.mono (by decide)))))

end Cert.ReferenceIdeal.Staged

end
-- ==== Proof.RefEdgeOps.lean ====
import proofs.«429891_j34660386078849_1_alg».proof.ReferenceIdeal

noncomputable section

namespace Cert.ReferenceIdeal.Edges

open Cert.ReferenceIdeal Idealize.ShloMosaic

variable {F : FTy → Type} [FloatOps F] [Facts₀]

open Facts₀

/-- The first row of the edge list, then every node once (its loop). -/
def sources (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

def targets (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

def wrapped (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

def asColumn (v : IVec S1700000 32) : IVec S1700000x1 32 := broadcastInDim S1700000x1 ![0] bcast_S1700000_S1700000x1_0 v

def invSqrtDegree (tgt : IVec S1700000 32) : FVec F S100000 .f32 :=
  Host.rsqrt (maximumf
    (Host.scatterAdd scatter_S100000_S1700000x1_S1700000_n_0_0_1
      (broadcastInDim S100000 ![] bcast_S_S100000 (constant S_ .f32 0x00000000#32)) (asColumn tgt)
      (broadcastInDim S1700000 ![] bcast_S_S1700000 (constant S_ .f32 0x3F800000#32)))
    (broadcastInDim S100000 ![] bcast_S_S100000 (constant S_ .f32 0x2B8CBCCC#32)))

/-- An edge's weight: the product of the reciprocal roots of the degrees of its two ends. -/
def edgeWeights (src tgt : IVec S1700000 32) : FVec F S1700000x1 .f32 :=
  broadcastInDim S1700000x1 ![0] bcast_S1700000_S1700000x1_0
    (mulf (Host.gather gather_S100000_S1700000x1_S1700000_n_0_n_n_0_1_1 (invSqrtDegree (F := F) tgt) (asColumn (wrapped src)))
          (Host.gather gather_S100000_S1700000x1_S1700000_n_0_n_n_0_1_1 (invSqrtDegree (F := F) tgt) (asColumn (wrapped tgt))))

def aggregate128 (src tgt : IVec S1700000 32) (wts : FVec F S1700000x1 .f32) (hp : FVec F S100000x128 .f32) : FVec F S100000x128 .f32 :=
  Host.scatterAdd scatter_S100000x128_S1700000x1_S1700000x128_1_0_0_1
    (broadcastInDim S100000x128 ![] bcast_S_S100000x128 (constant S_ .f32 0x00000000#32)) (asColumn tgt)
    (mulf (Host.gather gather_S100000x128_S1700000x1_S1700000x128_1_0_n_n_0_1_1128 hp (asColumn (wrapped src)))
          (broadcastInDim S1700000x128 ![0, 1] bcast_S1700000x1_S1700000x128_0_1 wts))

def aggregate64 (src tgt : IVec S1700000 32) (wts : FVec F S1700000x1 .f32) (hp : FVec F S100000x64 .f32) : FVec F S100000x64 .f32 :=
  Host.scatterAdd scatter_S100000x64_S1700000x1_S1700000x64_1_0_0_1
    (broadcastInDim S100000x64 ![] bcast_S_S100000x64 (constant S_ .f32 0x00000000#32)) (asColumn tgt)
    (mulf (Host.gather gather_S100000x64_S1700000x1_S1700000x64_1_0_n_n_0_1_164 hp (asColumn (wrapped src)))
          (broadcastInDim S1700000x64 ![0, 1] bcast_S1700000x1_S1700000x64_0_1 wts))

end Cert.ReferenceIdeal.Edges

end
-- ==== Proof.RefLayer1.lean ====
import proofs.«429891_j34660386078849_1_alg».proof.Proof.RefArgs
import proofs.«429891_j34660386078849_1_alg».proof.Proof.RefEdgeOps

set_option maxRecDepth 8192

noncomputable section

namespace Cert.ReferenceIdeal.Layers

open Cert.ReferenceIdeal Cert.ReferenceIdeal.Gen Cert.ReferenceIdeal.Staged Cert.ReferenceIdeal.Edges Cert.Gcn
  Idealize.ShloMosaic Idealize.ShloMosaic.ValueIdx Idealize.ShloMosaic.StableHlo Idealize.ShloMosaic.TcCoe Idealize.SL.Sem

set_option maxHeartbeats 8000000 in
/-- The first layer: its first nineteen operations leave the aggregated product plus the bias, the rest normalise it. -/
theorem layer1 (V : Valuation τ sig (Elt Ideal)) :
    after opsLayer1 V (Proc.devRef .tc main_v71)
      = normOfDeviations
          (addRow (aggregate128 (F := Ideal) (V (Proc.devRef .tc main_v3)) (V (Proc.devRef .tc main_v6)) (V (Proc.devRef .tc main_v29))
              (mm (V (Proc.devRef .tc main_arg0)) (V (Proc.devRef .tc main_arg2))))
            (fun q : Fin 128 => V (Proc.devRef .tc main_arg3) (ix1 q)))
          (fun q : Fin 128 => V (Proc.devRef .tc main_arg4) (ix1 q)) (fun q : Fin 128 => V (Proc.devRef .tc main_arg5) (ix1 q)) := by
  have hN (W : Valuation τ sig (Elt Ideal)) : after (opsLayer1.drop 19) W (Proc.devRef .tc main_v71)
      = normOps bcast_S128_S1x128_1 bcast_S1x128_S100000x128_0_1 bcast_S_S128 bcast_S_S100000x128
          reducesTo_S100000x128_S128_d0 h_S_
          (W (Proc.devRef .tc main_v45)) (W (Proc.devRef .tc main_arg4)) (W (Proc.devRef .tc main_arg5)) := by
    simp only [List.drop_succ_cons, List.drop_zero]
    after_results_simp
    simp only [TRef.ofBuf, TRef.toBuf, cast_eq]
  rw [after_take_drop 19 opsLayer1]
  refine layer_eq _ _ _ _ _ (by decide) _ (aggregate128 _ _ _) _ _ _ _ _ (hN _) ?_
    ((writes_layer1.take 19).kept V (by decide)) ((writes_layer1.take 19).kept V (by decide))
  simp only [List.take_succ_cons, List.take_zero]
  after_results
  rfl

end Cert.ReferenceIdeal.Layers

end
-- ==== Proof.RefLayer2.lean ====
import proofs.«429891_j34660386078849_1_alg».proof.Proof.RefArgs
import proofs.«429891_j34660386078849_1_alg».proof.Proof.RefEdgeOps

set_option maxRecDepth 8192

noncomputable section

namespace Cert.ReferenceIdeal.Layers

open Cert.ReferenceIdeal Cert.ReferenceIdeal.Gen Cert.ReferenceIdeal.Staged Cert.ReferenceIdeal.Edges Cert.Gcn
  Idealize.ShloMosaic Idealize.ShloMosaic.ValueIdx Idealize.ShloMosaic.StableHlo Idealize.ShloMosaic.TcCoe Idealize.SL.Sem

set_option maxHeartbeats 8000000 in
/-- The second layer: its first nineteen operations leave the aggregated product plus the bias, the rest normalise it. -/
theorem layer2 (V : Valuation τ sig (Elt Ideal)) :
    after opsLayer2 V (Proc.devRef .tc main_v113)
      = normOfDeviations
          (addRow (aggregate128 (F := Ideal) (V (Proc.devRef .tc main_v3)) (V (Proc.devRef .tc main_v6)) (V (Proc.devRef .tc main_v29))
              (mm (V (Proc.devRef .tc main_v71)) (V (Proc.devRef .tc main_arg6))))
            (fun q : Fin 128 => V (Proc.devRef .tc main_arg7) (ix1 q)))
          (fun q : Fin 128 => V (Proc.devRef .tc main_arg8) (ix1 q)) (fun q : Fin 128 => V (Proc.devRef .tc main_arg9) (ix1 q)) := by
  have hN (W : Valuation τ sig (Elt Ideal)) : after (opsLayer2.drop 19) W (Proc.devRef .tc main_v113)
      = normOps bcast_S128_S1x128_1 bcast_S1x128_S100000x128_0_1 bcast_S_S128 bcast_S_S100000x128
          reducesTo_S100000x128_S128_d0 h_S_
          (W (Proc.devRef .tc main_v87)) (W (Proc.devRef .tc main_arg8)) (W (Proc.devRef .tc main_arg9)) := by
    simp only [List.drop_succ_cons, List.drop_zero]
    after_results_simp
    simp only [TRef.ofBuf, TRef.toBuf, cast_eq]
  rw [after_take_drop 19 opsLayer2]
  refine layer_eq _ _ _ _ _ (by decide) _ (aggregate128 _ _ _) _ _ _ _ _ (hN _) ?_
    ((writes_layer2.take 19).kept V (by decide)) ((writes_layer2.take 19).kept V (by decide))
  simp only [List.take_succ_cons, List.take_zero]
  after_results
  rfl

end Cert.ReferenceIdeal.Layers

end
-- ==== Proof.RefLayer3.lean ====
import proofs.«429891_j34660386078849_1_alg».proof.Proof.RefArgs
import proofs.«429891_j34660386078849_1_alg».proof.Proof.RefEdgeOps

set_option maxRecDepth 8192

noncomputable section

namespace Cert.ReferenceIdeal.Layers

open Cert.ReferenceIdeal Cert.ReferenceIdeal.Gen Cert.ReferenceIdeal.Staged Cert.ReferenceIdeal.Edges Cert.Gcn
  Idealize.ShloMosaic Idealize.ShloMosaic.ValueIdx Idealize.ShloMosaic.StableHlo Idealize.ShloMosaic.TcCoe Idealize.SL.Sem

set_option maxHeartbeats 8000000 in
/-- The third layer: its first nineteen operations leave the aggregated product plus the bias, the rest normalise it. -/
theorem layer3 (V : Valuation τ sig (Elt Ideal)) :
    after opsLayer3 V (Proc.devRef .tc main_v155)
      = normOfDeviations
          (addRow (aggregate64 (F := Ideal) (V (Proc.devRef .tc main_v3)) (V (Proc.devRef .tc main_v6)) (V (Proc.devRef .tc main_v29))
              (mm (V (Proc.devRef .tc main_v113)) (V (Proc.devRef .tc main_arg10))))
            (fun q : Fin 64 => V (Proc.devRef .tc main_arg11) (ix1 q)))
          (fun q : Fin 64 => V (Proc.devRef .tc main_arg12) (ix1 q)) (fun q : Fin 64 => V (Proc.devRef .tc main_arg13) (ix1 q)) := by
  have hN (W : Valuation τ sig (Elt Ideal)) : after (opsLayer3.drop 19) W (Proc.devRef .tc main_v155)
      = normOps bcast_S64_S1x64_1 bcast_S1x64_S100000x64_0_1 bcast_S_S64 bcast_S_S100000x64
          reducesTo_S100000x64_S64_d0 h_S_
          (W (Proc.devRef .tc main_v129)) (W (Proc.devRef .tc main_arg12)) (W (Proc.devRef .tc main_arg13)) := by
    simp only [List.drop_succ_cons, List.drop_zero]
    after_results_simp
    simp only [TRef.ofBuf, TRef.toBuf, cast_eq]
  rw [after_take_drop 19 opsLayer3]
  refine layer_eq _ _ _ _ _ (by decide) _ (aggregate64 _ _ _) _ _ _ _ _ (hN _) ?_
    ((writes_layer3.take 19).kept V (by decide)) ((writes_layer3.take 19).kept V (by decide))
  simp only [List.take_succ_cons, List.take_zero]
  after_results
  rfl

end Cert.ReferenceIdeal.Layers

end
-- ==== Proof.RefEnds.lean ====
import proofs.«429891_j34660386078849_1_alg».proof.Proof.RefOps
import proofs.«429891_j34660386078849_1_alg».proof.Proof.RefEdgeOps
import proofs.«429891_j34660386078849_1_alg».proof.Proof.RefLayerLaws

set_option maxRecDepth 8192

noncomputable section

namespace Cert.ReferenceIdeal.Layers

open Cert.ReferenceIdeal Cert.ReferenceIdeal.Gen Cert.ReferenceIdeal.Staged Cert.ReferenceIdeal.Edges Cert.Gcn
  Idealize.ShloMosaic Idealize.ShloMosaic.ValueIdx Idealize.ShloMosaic.StableHlo Idealize.ShloMosaic.TcCoe Idealize.SL.Sem

set_option maxHeartbeats 8000000 in
/-- The first stretch leaves the edges' sources and targets, each with every node's loop, and the edges' weights. -/
theorem edges (V : Valuation τ sig (Elt Ideal)) :
    after opsEdges V (Proc.devRef .tc main_v3) = sources (V (Proc.devRef .tc main_arg1))
    ∧ after opsEdges V (Proc.devRef .tc main_v6) = targets (V (Proc.devRef .tc main_arg1))
    ∧ after opsEdges V (Proc.devRef .tc main_v29)
        = edgeWeights (F := Ideal) (sources (V (Proc.devRef .tc main_arg1))) (targets (V (Proc.devRef .tc main_arg1))) := by
  refine ⟨?_, ?_, ?_⟩ <;> (after_results; rfl)

set_option maxHeartbeats 8000000 in
/-- The last stretch's operations spell the dense head over the last layer's result. -/
theorem head (V : Valuation τ sig (Elt Ideal)) :
    after opsHead V (Proc.devRef .tc main_v165)
      = fun i => dense (denseClamp (V (Proc.devRef .tc main_v155)) (V (Proc.devRef .tc main_arg14))
            (fun q : Fin 32 => V (Proc.devRef .tc main_arg15) (ix1 q)))
          (V (Proc.devRef .tc main_arg16)) (fun q : Fin 1 => V (Proc.devRef .tc main_arg17) (ix1 q)) (ix2 (i 0) (0 : Fin 1)) := by
  refine Eq.trans ?_ (headOps_eq bcast_S32_S1x32_1 bcast_S1x32_S100000x32_0_1 bcast_S_S100000x32 bcast_S1_S1x1_1
    bcast_S1x1_S100000x1_0_1 shapeCasts_S100000x1_S100000 _ _ _ _ _)
  after_results
  simp only [TRef.ofBuf, TRef.toBuf, cast_eq]
  rfl

end Cert.ReferenceIdeal.Layers

end
-- ==== Proof.EdgeBridge.lean ====
import proofs.«429891_j34660386078849_1_alg».proof.Proof.EdgeOps
import proofs.«429891_j34660386078849_1_alg».proof.Proof.RefEdgeOps
import proofs.«429891_j34660386078849_1_alg».proof.Proof.Gen.KernelIdeal
import proofs.«429891_j34660386078849_1_alg».proof.Proof.Gen.ReferenceIdeal

noncomputable section

namespace Cert.Bridge

open Idealize.ShloMosaic

variable {F : FTy → Type} [FloatOps F]

theorem sources_eq (a1 : IVec ⟨2, ![2, 1600000]⟩ 32) :
    Cert.ReferenceIdeal.Edges.sources a1 = Cert.KernelIdeal.Edges.sources a1 := rfl

theorem targets_eq (a1 : IVec ⟨2, ![2, 1600000]⟩ 32) :
    Cert.ReferenceIdeal.Edges.targets a1 = Cert.KernelIdeal.Edges.targets a1 := rfl

theorem edgeWeights_eq (s t : IVec ⟨1, ![1700000]⟩ 32) :
    Cert.ReferenceIdeal.Edges.edgeWeights (F := F) s t = Cert.KernelIdeal.Edges.edgeWeights (F := F) s t := rfl

theorem aggregate128_eq (s t : IVec ⟨1, ![1700000]⟩ 32) (w : FVec F ⟨2, ![1700000, 1]⟩ .f32)
    (hp : FVec F ⟨2, ![100000, 128]⟩ .f32) :
    Cert.ReferenceIdeal.Edges.aggregate128 s t w hp = Cert.KernelIdeal.Edges.aggregate128 s t w hp := rfl

theorem aggregate64_eq (s t : IVec ⟨1, ![1700000]⟩ 32) (w : FVec F ⟨2, ![1700000, 1]⟩ .f32)
    (hp : FVec F ⟨2, ![100000, 64]⟩ .f32) :
    Cert.ReferenceIdeal.Edges.aggregate64 s t w hp = Cert.KernelIdeal.Edges.aggregate64 s t w hp := rfl

end Cert.Bridge

end
-- ==== Proof.RefResult.lean ====
import proofs.«429891_j34660386078849_1_alg».proof.Proof.RefLayer1
import proofs.«429891_j34660386078849_1_alg».proof.Proof.RefLayer2
import proofs.«429891_j34660386078849_1_alg».proof.Proof.RefLayer3
import proofs.«429891_j34660386078849_1_alg».proof.Proof.RefEnds
import proofs.«429891_j34660386078849_1_alg».proof.Proof.EdgeBridge
import proofs.«429891_j34660386078849_1_alg».proof.Proof.Network

set_option maxRecDepth 16384

noncomputable section

namespace Cert.ReferenceIdeal.Layers

open Cert.ReferenceIdeal Cert.ReferenceIdeal.Gen Cert.ReferenceIdeal.Staged Cert.Gcn
open Idealize.ShloMosaic Idealize.ShloMosaic.ValueIdx Idealize.ShloMosaic.StableHlo Idealize.ShloMosaic.TcCoe Idealize.SL.Sem

set_option maxHeartbeats 4000000 in
/-- Stretch by stretch: each layer reads what the stretches before it left, and no stretch writes below its own results. -/
theorem result (V : Valuation τ sig (Elt Ideal)) :
    after ops V (Proc.devRef .tc main_v165)
      = Cert.KernelIdeal.Net.referenceNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  obtain ⟨e3, e6, e29⟩ := edges V
  rw [after_ops, head, layer3, layer2, layer1]
  simp (disch := decide) only [writes_layer3.kept, writes_layer2.kept, writes_layer1.kept, writes_edges.kept, e3, e6, e29]
  simp only [Cert.Bridge.aggregate128_eq, Cert.Bridge.aggregate64_eq, Cert.Bridge.edgeWeights_eq,
    Cert.Bridge.sources_eq, Cert.Bridge.targets_eq]
  rfl

end Cert.ReferenceIdeal.Layers

end
-- ==== Proof.PreFacts.lean ====
import proofs.«429891_j34660386078849_1_alg».proof.Pre_finite_inputs
import proofs.«429891_j34660386078849_1_alg».proof.Proof.Gen.Pre_finite_inputs
import proofs.«429891_j34660386078849_1_alg».proof.Proof.Spec
import Idealize.ShloMosaic.Lib.ReduceAll
import Idealize.ShloMosaic.Lib.ValueLayout

noncomputable section

namespace Cert.Pre_finite_inputs.Decode

open Idealize.ShloMosaic Idealize.ShloMosaic.ValueIdx
open Cert.Pre_finite_inputs Cert.Gcn

instance : Subsingleton S_.Idx := ⟨fun a b => funext fun d => d.elim0⟩

theorem inf_word : Ideal.ofBits .f32 0x7F800000#32 = (⊤ : EReal) := by simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_cmp {s : Shape} (x : FVec Ideal s .f32) (y : FVec Ideal s .f32) (i : s.Idx)
    (hy : y i = Ideal.ofBits .f32 0x7F800000#32) (e : cmpf .olt (Host.absf x) y i = 1#1) : ∃ r : ℝ, x i = (r : EReal) := by
  have e' : Ideal.cmp .olt (max (x i) (-(x i))) (y i) = 1#1 := e
  rw [hy, inf_word] at e'
  apply real_of_abs_lt_top
  by_contra hn
  simp [Ideal.cmp, hn] at e'

theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] hb (constant (F := Ideal) S_ .f32 0x7F800000#32)))
      init hr hu j = 1#1) : AllReal x :=
  fun i => real_of_cmp x _ i rfl (Host.reduce_andi_all _ init hr hu j e i)

theorem and_one {c d : IVec S_ 1} {j : S_.Idx} : andi c d j = 1#1 ↔ c j = 1#1 ∧ d j = 1#1 := IntOp.andi_eq_one

theorem row0_apply (a1 : IVec S2x1600000 32) (hs : S2x1600000.Slices ![0, 0] S1x1600000)
    (hc : S1x1600000.ShapeCasts S1600000) (e : Fin 1600000) :
    shapeCast S1600000 (extractStridedSlice S1x1600000 ![0, 0] a1 hs) hc (ix1 e) = a1 (ix2 (0 : Fin 2) e) := by
  rw [shapeCast_1a_a_apply]
  exact extractStridedSlice_apply _ _ _ _ (ix2 (0 : Fin 2) e) (fun a => by
    match a with
    | ⟨0, _⟩ => rfl
    | ⟨1, _⟩ => exact (Nat.zero_add _).symm)

def Row (a1 : IVec S2x1600000 32) : Prop :=
  ∀ e : Fin 1600000, 0 ≤ (a1 (ix2 (0 : Fin 2) e)).toInt ∧ (a1 (ix2 (0 : Fin 2) e)).toInt < 100000

theorem part5 (a1 : IVec S2x1600000 32) (v83 : IVec S_ 1) (v85 : IVec S1600000 32) (j : S_.Idx)
    (h : fn_part5 (F := Ideal) a1 v83 v85 j = 1#1) :
    v83 j = 1#1 ∧ (∀ i, 0 ≤ (v85 i).toInt) ∧ ∀ e : Fin 1600000, (a1 (ix2 (0 : Fin 2) e)).toInt < 100000 := by
  dsimp only [fn_part5] at h
  simp only [and_one] at h
  obtain ⟨⟨h1, h2⟩, h3⟩ := h
  refine ⟨h1, fun i => ?_, fun e => ?_⟩
  · have h0 := Host.reduce_andi_all _ _ _ _ j h2 i
    have h0' : IntOp.cmpi .sge (v85 i) 0#32 = 1#1 := h0
    have := IntOp.cmpi_sge.1 h0'
    rwa [show (0#32 : BitVec 32).toInt = 0 from by decide] at this
  · have h0 := Host.reduce_andi_all _ _ _ _ j h3 (ix1 e)
    have h0' : IntOp.cmpi .slt (shapeCast S1600000 (extractStridedSlice S1x1600000 ![0, 0] a1
        Facts.slices_S2x1600000_S1x1600000_0_0) Facts.shapeCasts_S1x1600000_S1600000 (ix1 e)) 100000#32 = 1#1 := h0
    rw [row0_apply] at h0'
    have := IntOp.cmpi_slt.1 h0'
    rwa [show (100000#32 : BitVec 32).toInt = 100000 from by decide] at this

theorem part4 (a1 : IVec S2x1600000 32) (a15 : FVec Ideal S32 .f32) (a16 : FVec Ideal S32x1 .f32) (a17 : FVec Ideal S1 .f32)
    (v63 v67 : IVec S_ 1) (j : S_.Idx) (h : fn_part4 (F := Ideal) a1 a15 a16 a17 v63 v67 j = 1#1) :
    v63 j = 1#1 ∧ v67 j = 1#1 ∧ AllReal a15 ∧ AllReal a16 ∧ AllReal a17 ∧ Row a1 := by
  dsimp only [fn_part4] at h
  obtain ⟨h83, h85, hlt⟩ := part5 _ _ _ j h
  simp only [and_one] at h83
  obtain ⟨⟨⟨⟨h63, h67⟩, h15⟩, h16⟩, h17⟩ := h83
  refine ⟨h63, h67, allReal_of_all _ _ _ _ _ j h15, allReal_of_all _ _ _ _ _ j h16, allReal_of_all _ _ _ _ _ j h17,
    fun e => ⟨?_, hlt e⟩⟩
  have := h85 (ix1 e)
  rwa [row0_apply] at this

theorem part3 (a1 : IVec S2x1600000 32) (a12 a13 : FVec Ideal S64 .f32) (a14 : FVec Ideal S64x32 .f32)
    (a15 : FVec Ideal S32 .f32) (a16 : FVec Ideal S32x1 .f32) (a17 : FVec Ideal S1 .f32)
    (v48 : IVec S_ 1) (v49 v50 : FVec Ideal S64 .f32) (j : S_.Idx)
    (h : fn_part3 (F := Ideal) a1 a12 a13 a14 a15 a16 a17 v48 v49 v50 j = 1#1) :
    v48 j = 1#1 ∧ (∀ i, cmpf .olt v49 v50 i = 1#1) ∧ AllReal a12 ∧ AllReal a13 ∧ AllReal a14 ∧ AllReal a15 ∧ AllReal a16
      ∧ AllReal a17 ∧ Row a1 := by
  dsimp only [fn_part3] at h
  obtain ⟨h63, h67, r15, r16, r17, hrow⟩ := part4 _ _ _ _ _ _ j h
  simp only [and_one] at h63
  obtain ⟨⟨⟨h48, h11⟩, h12⟩, h13⟩ := h63
  exact ⟨h48, fun i => Host.reduce_andi_all _ _ _ _ j h11 i, allReal_of_all _ _ _ _ _ j h12, allReal_of_all _ _ _ _ _ j h13,
    allReal_of_all _ _ _ _ _ j h67, r15, r16, r17, hrow⟩

theorem part2 (a1 : IVec S2x1600000 32) (a8 a9 : FVec Ideal S128 .f32) (a10 : FVec Ideal S128x64 .f32)
    (a11 a12 a13 : FVec Ideal S64 .f32) (a14 : FVec Ideal S64x32 .f32)
    (a15 : FVec Ideal S32 .f32) (a16 : FVec Ideal S32x1 .f32) (a17 : FVec Ideal S1 .f32) (v33 : IVec S_ 1) (j : S_.Idx)
    (h : fn_part2 (F := Ideal) a1 a8 a9 a10 a11 a12 a13 a14 a15 a16 a17 v33 j = 1#1) :
    v33 j = 1#1 ∧ AllReal a8 ∧ AllReal a9 ∧ AllReal a10 ∧ AllReal a11 ∧ AllReal a12 ∧ AllReal a13 ∧ AllReal a14 ∧ AllReal a15
      ∧ AllReal a16 ∧ AllReal a17 ∧ Row a1 := by
  dsimp only [fn_part2] at h
  obtain ⟨h48, h11, r12, r13, r14, r15, r16, r17, hrow⟩ := part3 _ _ _ _ _ _ _ _ _ _ j h
  simp only [and_one] at h48
  obtain ⟨⟨⟨h33, h8⟩, h9⟩, h10⟩ := h48
  exact ⟨h33, allReal_of_all _ _ _ _ _ j h8, allReal_of_all _ _ _ _ _ j h9, allReal_of_all _ _ _ _ _ j h10,
    fun i => real_of_cmp a11 _ i rfl (h11 i), r12, r13, r14, r15, r16, r17, hrow⟩

theorem part1 (a1 : IVec S2x1600000 32) (a5 : FVec Ideal S128 .f32) (a6 : FVec Ideal S128x128 .f32)
    (a7 a8 a9 : FVec Ideal S128 .f32) (a10 : FVec Ideal S128x64 .f32)
    (a11 a12 a13 : FVec Ideal S64 .f32) (a14 : FVec Ideal S64x32 .f32)
    (a15 : FVec Ideal S32 .f32) (a16 : FVec Ideal S32x1 .f32) (a17 : FVec Ideal S1 .f32)
    (v13 : IVec S_ 1) (v16 : IVec S128 1) (j : S_.Idx)
    (h : fn_part1 (F := Ideal) a1 a5 a6 a7 a8 a9 a10 a11 a12 a13 a14 a15 a16 a17 v13 v16 j = 1#1) :
    v13 j = 1#1 ∧ (∀ i, v16 i = 1#1) ∧ AllReal a5 ∧ AllReal a6 ∧ AllReal a7 ∧ AllReal a8 ∧ AllReal a9 ∧ AllReal a10
      ∧ AllReal a11 ∧ AllReal a12 ∧ AllReal a13 ∧ AllReal a14 ∧ AllReal a15 ∧ AllReal a16 ∧ AllReal a17 ∧ Row a1 := by
  dsimp only [fn_part1] at h
  obtain ⟨h33, r8, r9, r10, r11, r12, r13, r14, r15, r16, r17, hrow⟩ := part2 _ _ _ _ _ _ _ _ _ _ _ _ j h
  simp only [and_one] at h33
  obtain ⟨⟨⟨⟨h13, h4⟩, h5⟩, h6⟩, h7⟩ := h33
  exact ⟨h13, fun i => Host.reduce_andi_all _ _ _ _ j h4 i, allReal_of_all _ _ _ _ _ j h5, allReal_of_all _ _ _ _ _ j h6,
    allReal_of_all _ _ _ _ _ j h7, r8, r9, r10, r11, r12, r13, r14, r15, r16, r17, hrow⟩

/-- The precondition says: every float argument is real everywhere, and every source of the edge list is a node. -/
theorem of_pre (a0 : FVec Ideal S100000x128 .f32) (a1 : IVec S2x1600000 32) (a2 : FVec Ideal S128x128 .f32)
    (a3 a4 a5 : FVec Ideal S128 .f32) (a6 : FVec Ideal S128x128 .f32) (a7 a8 a9 : FVec Ideal S128 .f32)
    (a10 : FVec Ideal S128x64 .f32) (a11 a12 a13 : FVec Ideal S64 .f32) (a14 : FVec Ideal S64x32 .f32)
    (a15 : FVec Ideal S32 .f32) (a16 : FVec Ideal S32x1 .f32) (a17 : FVec Ideal S1 .f32)
    (h : fn (F := Ideal) a0 a1 a2 a3 a4 a5 a6 a7 a8 a9 a10 a11 a12 a13 a14 a15 a16 a17 = fun _ => 1#1) :
    AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12 ∧ AllReal a13 ∧ AllReal a14 ∧ AllReal a15 ∧ AllReal a16 ∧ AllReal a17
      ∧ ∀ e : Fin 1600000, 0 ≤ (a1 (ValueIdx.ix2 (0 : Fin 2) e)).toInt ∧ (a1 (ValueIdx.ix2 (0 : Fin 2) e)).toInt < 100000 := by
  have h' := congrFun h ValueIdx.ix0
  dsimp only [fn] at h'
  obtain ⟨h13, h4, r5, r6, r7, r8, r9, r10, r11, r12, r13, r14, r15, r16, r17, hrow⟩ :=
    part1 _ _ _ _ _ _ _ _ _ _ _ _ _ _ _ _ ValueIdx.ix0 h'
  simp only [and_one] at h13
  obtain ⟨⟨h0, h2⟩, h3⟩ := h13
  exact ⟨allReal_of_all _ _ _ _ _ _ h0, allReal_of_all _ _ _ _ _ _ h2, allReal_of_all _ _ _ _ _ _ h3,
    fun i => real_of_cmp a4 _ i rfl (h4 i), r5, r6, r7, r8, r9, r10, r11, r12, r13, r14, r15, r16, r17, hrow⟩

end Cert.Pre_finite_inputs.Decode

end
-- ==== Proof.lean ====
import proofs.«429891_j34660386078849_1_alg».proof.Defs
import proofs.«429891_j34660386078849_1_alg».proof.Proof.Gen.Kernel
import proofs.«429891_j34660386078849_1_alg».proof.Proof.Gen.Kernel.Frame
import proofs.«429891_j34660386078849_1_alg».proof.Proof.Gen.KernelIdeal
import proofs.«429891_j34660386078849_1_alg».proof.Proof.Gen.KernelIdeal.Frame
import proofs.«429891_j34660386078849_1_alg».proof.Proof.Gen.ReferenceIdeal
import proofs.«429891_j34660386078849_1_alg».proof.Proof.Gen.Pre_finite_inputs
import proofs.«429891_j34660386078849_1_alg».proof.Proof.KernelRun
import proofs.«429891_j34660386078849_1_alg».proof.Proof.KernelResult
import proofs.«429891_j34660386078849_1_alg».proof.Proof.RefOps
import proofs.«429891_j34660386078849_1_alg».proof.Proof.RefArgs
import proofs.«429891_j34660386078849_1_alg».proof.Proof.RefResult
import proofs.«429891_j34660386078849_1_alg».proof.Proof.Network
import proofs.«429891_j34660386078849_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: each buffer ends at what they leave, and none of them writes an argument. -/
theorem frame_referenceIdeal : Cert.frame_ReferenceIdeal := fun m ρ _ =>
  (θ_run Cert.ReferenceIdeal.defs _ _).mono (fun r h c =>
    by refine ⟨?_, ?_, ?_, ?_, ?_, ?_, ?_, ?_, ?_, ?_, ?_, ?_, ?_, ?_, ?_, ?_, ?_, ?_⟩ <;> exact (h c _).trans (Cert.ReferenceIdeal.Staged.writes_ops.kept _ (by decide)))
    (Cert.ReferenceIdeal.Staged.run_after (F := Ideal) m ρ)

/-- Each run ends at its network of the arguments, and under the precondition the two networks are one function. -/
theorem algebraic : Cert.algebraic_KernelIdeal_ReferenceIdeal := by
  intro m ρ m' ρ' hpre hag
  open Cert.KernelIdeal in
  refine ⟨fun c => Net.kernelNet (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)), ?_, ?_⟩
  · exact (θ_run Cert.KernelIdeal.defs _ _).mono
      (fun r h c => ⟨(h c).1.trans (Cert.KernelIdeal.Chain.result m ρ c), (h c).2⟩)
      (Cert.KernelIdeal.Result.run_result (F := Ideal) m ρ)
  · refine (θ_run Cert.ReferenceIdeal.defs _ _).mono (fun r h c => ⟨?_, by
      refine ⟨?_, ?_, ?_, ?_, ?_, ?_, ?_, ?_, ?_, ?_, ?_, ?_, ?_, ?_, ?_, ?_, ?_, ?_⟩ <;> exact (h c _).trans (Cert.ReferenceIdeal.Staged.writes_ops.kept _ (by decide))⟩)
      (Cert.ReferenceIdeal.Staged.run_after (F := Ideal) m' ρ')
    obtain ⟨g0, g1, g2, g3, g4, g5, g6, g7, g8, g9, g10, g11, g12, g13, g14, g15, g16, g17⟩ := hag c
    obtain ⟨r0, r2, r3, r4, r5, r6, r7, r8, r9, r10, r11, _, _, _, _, _, _, hsrc⟩ :=
      Cert.Pre_finite_inputs.Decode.of_pre _ _ _ _ _ _ _ _ _ _ _ _ _ _ _ _ _ _ (hpre c)
    refine (h c Cert.ReferenceIdeal.main_v165).trans ?_
    refine (Cert.ReferenceIdeal.Layers.result (StableHlo.launchContents m' c)).trans ?_
    open Cert.ReferenceIdeal in
    show Cert.KernelIdeal.Net.referenceNet (m' (c.tc.loc main_arg0)) (m' (c.tc.loc main_arg1)) (m' (c.tc.loc main_arg2)) (m' (c.tc.loc main_arg3)) (m' (c.tc.loc main_arg4)) (m' (c.tc.loc main_arg5)) (m' (c.tc.loc main_arg6)) (m' (c.tc.loc main_arg7)) (m' (c.tc.loc main_arg8)) (m' (c.tc.loc main_arg9)) (m' (c.tc.loc main_arg10)) (m' (c.tc.loc main_arg11)) (m' (c.tc.loc main_arg12)) (m' (c.tc.loc main_arg13)) (m' (c.tc.loc main_arg14)) (m' (c.tc.loc main_arg15)) (m' (c.tc.loc main_arg16)) (m' (c.tc.loc main_arg17)) = _
    rw [g0, g1, g2, g3, g4, g5, g6, g7, g8, g9, g10, g11, g12, g13, g14, g15, g16, g17]
    exact (Cert.KernelIdeal.Net.kernelNet_eq_referenceNet _ _ _ _ _ _ _ _ _ _ _ _ _ _ _ _ _ _
      r0 r2 r3 r4 r5 r6 r7 r8 r9 r10 r11 hsrc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
